-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S4x262144 : Shape := ⟨2, ![4, 262144]⟩
abbrev S4x8192 : Shape := ⟨2, ![4, 8192]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S4x262144 : S_.BroadcastsInDim S4x262144 (![] : Fin 0 → Fin S4x262144.rank)
  reducesTo_S4x262144_S_d0_1 : S4x262144.ReducesTo [0, 1] S_
  bcast_S_S4x8192 : S_.BroadcastsInDim S4x8192 (![] : Fin 0 → Fin S4x8192.rank)
  reducesTo_S4x8192_S_d0_1 : S4x8192.ReducesTo [0, 1] S_

variable [Facts]

def fn_part1 {F : FTy → Type} [FloatOps F] (main_arg3 : IVec S4x262144 32) (main_arg4 : IVec S4x262144 32) (main_v13 : IVec S_ 1) (main_v15 : IVec S4x262144 1) (main_c_5 : IVec S_ 32) : IVec S_ 1 :=
  let main_v16 : IVec S4x262144 32 := broadcastInDim S4x262144 ![] bcast_S_S4x262144 main_c_5
  let main_v17 : IVec S4x262144 1 := cmpi .slt main_arg3 main_v16
  let main_v18 : IVec S4x262144 1 := andi main_v15 main_v17
  let main_c_6 : IVec S_ 1 := constantI S_ 1 1#1
  let main_v19 : IVec S_ 1 := (fun x v => Host.reduce IntOp.andi x v reducesTo_S4x262144_S_d0_1 h_S_) main_v18 main_c_6
  let main_v20 : IVec S_ 1 := andi main_v13 main_v19
  let main_c_7 : IVec S_ 32 := constantI S_ 32 0#32
  let main_v21 : IVec S4x262144 32 := broadcastInDim S4x262144 ![] bcast_S_S4x262144 main_c_7
  let main_v22 : IVec S4x262144 1 := cmpi .sge main_arg4 main_v21
  let main_c_8 : IVec S_ 32 := constantI S_ 32 8192#32
  let main_v23 : IVec S4x262144 32 := broadcastInDim S4x262144 ![] bcast_S_S4x262144 main_c_8
  let main_v24 : IVec S4x262144 1 := cmpi .slt main_arg4 main_v23
  let main_v25 : IVec S4x262144 1 := andi main_v22 main_v24
  let main_c_9 : IVec S_ 1 := constantI S_ 1 1#1
  let main_v26 : IVec S_ 1 := (fun x v => Host.reduce IntOp.andi x v reducesTo_S4x262144_S_d0_1 h_S_) main_v25 main_c_9
  let main_v27 : IVec S_ 1 := andi main_v20 main_v26
  main_v27

def fn {F : FTy → Type} [FloatOps F] (main_arg0 : FVec F S256x8192 .f32) (main_arg1 : FVec F S4x262144 .f32) (main_arg2 : FVec F S4x8192 .f32) (main_arg3 : IVec S4x262144 32) (main_arg4 : IVec S4x262144 32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S4x262144 .f32 := Host.absf main_arg1
  let main_cst_0 : FVec F S_ .f32 := constant S_ .f32 0x7F800000#32
  let main_v5 : FVec F S4x262144 .f32 := broadcastInDim S4x262144 ![] bcast_S_S4x262144 main_cst_0
  let main_v6 : IVec S4x262144 1 := cmpf .olt main_v4 main_v5
  let main_c_1 : IVec S_ 1 := constantI S_ 1 1#1
  let main_v7 : IVec S_ 1 := (fun x v => Host.reduce IntOp.andi x v reducesTo_S4x262144_S_d0_1 h_S_) main_v6 main_c_1
  let main_v8 : IVec S_ 1 := andi main_v3 main_v7
  let main_v9 : FVec F S4x8192 .f32 := Host.absf main_arg2
  let main_cst_2 : FVec F S_ .f32 := constant S_ .f32 0x7F800000#32
  let main_v10 : FVec F S4x8192 .f32 := broadcastInDim S4x8192 ![] bcast_S_S4x8192 main_cst_2
  let main_v11 : IVec S4x8192 1 := cmpf .olt main_v9 main_v10
  let main_c_3 : IVec S_ 1 := constantI S_ 1 1#1
  let main_v12 : IVec S_ 1 := (fun x v => Host.reduce IntOp.andi x v reducesTo_S4x8192_S_d0_1 h_S_) main_v11 main_c_3
  let main_v13 : IVec S_ 1 := andi main_v8 main_v12
  let main_c_4 : IVec S_ 32 := constantI S_ 32 0#32
  let main_v14 : IVec S4x262144 32 := broadcastInDim S4x262144 ![] bcast_S_S4x262144 main_c_4
  let main_v15 : IVec S4x262144 1 := cmpi .sge main_arg3 main_v14
  let main_c_5 : IVec S_ 32 := constantI S_ 32 8192#32
  fn_part1 (F := F) main_arg3 main_arg4 main_v13 main_v15 main_c_5
-- ==== Kernel.lean ====
abbrev S256x8192 : Shape := ⟨2, ![256, 8192]⟩
abbrev S4x262144 : Shape := ⟨2, ![4, 262144]⟩
abbrev S4x8192 : Shape := ⟨2, ![4, 8192]⟩
abbrev S1x262144 : Shape := ⟨2, ![1, 262144]⟩
abbrev S262144 : Shape := ⟨1, ![262144]⟩
abbrev S_ : Shape := ⟨0, ![]⟩
abbrev S67108864 : Shape := ⟨1, ![67108864]⟩
abbrev S262144x1 : Shape := ⟨2, ![262144, 1]⟩
abbrev S8192x8192 : Shape := ⟨2, ![8192, 8192]⟩
abbrev S1x8192 : Shape := ⟨2, ![1, 8192]⟩
abbrev S8192 : Shape := ⟨1, ![8192]⟩
abbrev S2048x2048 : Shape := ⟨2, ![2048, 2048]⟩
abbrev S1x2048 : Shape := ⟨2, ![1, 2048]⟩
abbrev S256x2048 : Shape := ⟨2, ![256, 2048]⟩

abbrev nBuf : Space → Nat
  | .hbm => 114
  | .vmem => 32
  | .smem => 0
  | _ => 0

abbrev bufTy : (tb : Table) → Fin (tcTables nBuf tb) → BufTy
  | .hbm, ⟨0, _⟩ => ⟨S256x8192, .f32⟩
  | .hbm, ⟨1, _⟩ => ⟨S4x262144, .f32⟩
  | .hbm, ⟨2, _⟩ => ⟨S4x8192, .f32⟩
  | .hbm, ⟨3, _⟩ => ⟨S4x262144, .i32⟩
  | .hbm, ⟨4, _⟩ => ⟨S4x262144, .i32⟩
  | .hbm, ⟨5, _⟩ => ⟨S1x262144, .i32⟩
  | .hbm, ⟨6, _⟩ => ⟨S262144, .i32⟩
  | .hbm, ⟨7, _⟩ => ⟨S1x262144, .i32⟩
  | .hbm, ⟨8, _⟩ => ⟨S262144, .i32⟩
  | .hbm, ⟨9, _⟩ => ⟨S1x262144, .f32⟩
  | .hbm, ⟨10, _⟩ => ⟨S262144, .f32⟩
  | .hbm, ⟨11, _⟩ => ⟨S_, .i32⟩
  | .hbm, ⟨12, _⟩ => ⟨S262144, .i32⟩
  | .hbm, ⟨13, _⟩ => ⟨S262144, .i32⟩
  | .hbm, ⟨14, _⟩ => ⟨S262144, .i32⟩
  | .hbm, ⟨15, _⟩ => ⟨S_, .f32⟩
  | .hbm, ⟨16, _⟩ => ⟨S67108864, .f32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S67108864, .f32⟩
  | .hbm, ⟨26, _⟩ => ⟨S8192x8192, .f32⟩
  | .hbm, ⟨27, _⟩ => ⟨S8192x8192, .bf16⟩
  | .hbm, ⟨28, _⟩ => ⟨S256x8192, .bf16⟩
  | .hbm, ⟨29, _⟩ => ⟨S1x8192, .f32⟩
  | .hbm, ⟨30, _⟩ => ⟨S8192, .f32⟩
  | .hbm, ⟨31, _⟩ => ⟨S1x8192, .f32⟩
  | .hbm, ⟨32, _⟩ => ⟨S256x8192, .bf16⟩
  | .hbm, ⟨33, _⟩ => ⟨S1x262144, .i32⟩
  | .hbm, ⟨34, _⟩ => ⟨S262144, .i32⟩
  | .hbm, ⟨35, _⟩ => ⟨S1x262144, .i32⟩
  | .hbm, ⟨36, _⟩ => ⟨S262144, .i32⟩
  | .hbm, ⟨37, _⟩ => ⟨S1x262144, .f32⟩
  | .hbm, ⟨38, _⟩ => ⟨S262144, .f32⟩
  | .hbm, ⟨39, _⟩ => ⟨S_, .i32⟩
  | .hbm, ⟨40, _⟩ => ⟨S262144, .i32⟩
  | .hbm, ⟨41, _⟩ => ⟨S262144, .i32⟩
  | .hbm, ⟨42, _⟩ => ⟨S262144, .i32⟩
  | .hbm, ⟨43, _⟩ => ⟨S_, .f32⟩
  | .hbm, ⟨44, _⟩ => ⟨S67108864, .f32⟩
  | .hbm, ⟨45, _⟩ => ⟨S_, .i32⟩
  | .hbm, ⟨46, _⟩ => ⟨S262144, .i32⟩
  | .hbm, ⟨47, _⟩ => ⟨S262144, .i1⟩
  | .hbm, ⟨48, _⟩ => ⟨S_, .i32⟩
  | .hbm, ⟨49, _⟩ => ⟨S262144, .i32⟩
  | .hbm, ⟨50, _⟩ => ⟨S262144, .i32⟩
  | .hbm, ⟨51, _⟩ => ⟨S262144, .i32⟩
  | .hbm, ⟨52, _⟩ => ⟨S262144x1, .i32⟩
  | .hbm, ⟨53, _⟩ => ⟨S67108864, .f32⟩
  | .hbm, ⟨54, _⟩ => ⟨S8192x8192, .f32⟩
  | .hbm, ⟨55, _⟩ => ⟨S8192x8192, .bf16⟩
  | .hbm, ⟨56, _⟩ => ⟨S1x8192, .f32⟩
  | .hbm, ⟨57, _⟩ => ⟨S8192, .f32⟩
  | .hbm, ⟨58, _⟩ => ⟨S1x8192, .f32⟩
  | .hbm, ⟨59, _⟩ => ⟨S256x8192, .bf16⟩
  | .hbm, ⟨60, _⟩ => ⟨S1x262144, .i32⟩
  | .hbm, ⟨61, _⟩ => ⟨S262144, .i32⟩
  | .hbm, ⟨62, _⟩ => ⟨S1x262144, .i32⟩
  | .hbm, ⟨63, _⟩ => ⟨S262144, .i32⟩
  | .hbm, ⟨64, _⟩ => ⟨S1x262144, .f32⟩
  | .hbm, ⟨65, _⟩ => ⟨S262144, .f32⟩
  | .hbm, ⟨66, _⟩ => ⟨S_, .i32⟩
  | .hbm, ⟨67, _⟩ => ⟨S262144, .i32⟩
  | .hbm, ⟨68, _⟩ => ⟨S262144, .i32⟩
  | .hbm, ⟨69, _⟩ => ⟨S262144, .i32⟩
  | .hbm, ⟨70, _⟩ => ⟨S_, .f32⟩
  | .hbm, ⟨71, _⟩ => ⟨S67108864, .f32⟩
  | .hbm, ⟨72, _⟩ => ⟨S_, .i32⟩
  | .hbm, ⟨73, _⟩ => ⟨S262144, .i32⟩
  | .hbm, ⟨74, _⟩ => ⟨S262144, .i1⟩
  | .hbm, ⟨75, _⟩ => ⟨S_, .i32⟩
  | .hbm, ⟨76, _⟩ => ⟨S262144, .i32⟩
  | .hbm, ⟨77, _⟩ => ⟨S262144, .i32⟩
  | .hbm, ⟨78, _⟩ => ⟨S262144, .i32⟩
  | .hbm, ⟨79, _⟩ => ⟨S262144x1, .i32⟩
  | .hbm, ⟨80, _⟩ => ⟨S67108864, .f32⟩
  | .hbm, ⟨81, _⟩ => ⟨S8192x8192, .f32⟩
  | .hbm, ⟨82, _⟩ => ⟨S8192x8192, .bf16⟩
  | .hbm, ⟨83, _⟩ => ⟨S1x8192, .f32⟩
  | .hbm, ⟨84, _⟩ => ⟨S8192, .f32⟩
  | .hbm, ⟨85, _⟩ => ⟨S1x8192, .f32⟩
  | .hbm, ⟨86, _⟩ => ⟨S256x8192, .bf16⟩
  | .hbm, ⟨87, _⟩ => ⟨S1x262144, .i32⟩
  | .hbm, ⟨88, _⟩ => ⟨S262144, .i32⟩
  | .hbm, ⟨89, _⟩ => ⟨S1x262144, .i32⟩
  | .hbm, ⟨90, _⟩ => ⟨S262144, .i32⟩
  | .hbm, ⟨91, _⟩ => ⟨S1x262144, .f32⟩
  | .hbm, ⟨92, _⟩ => ⟨S262144, .f32⟩
  | .hbm, ⟨93, _⟩ => ⟨S_, .i32⟩
  | .hbm, ⟨94, _⟩ => ⟨S262144, .i32⟩
  | .hbm, ⟨95, _⟩ => ⟨S262144, .i32⟩
  | .hbm, ⟨96, _⟩ => ⟨S262144, .i32⟩
  | .hbm, ⟨97, _⟩ => ⟨S_, .f32⟩
  | .hbm, ⟨98, _⟩ => ⟨S67108864, .f32⟩
  | .hbm, ⟨99, _⟩ => ⟨S_, .i32⟩
  | .hbm, ⟨100, _⟩ => ⟨S262144, .i32⟩
  | .hbm, ⟨101, _⟩ => ⟨S262144, .i1⟩
  | .hbm, ⟨102, _⟩ => ⟨S_, .i32⟩
  | .hbm, ⟨103, _⟩ => ⟨S262144, .i32⟩
  | .hbm, ⟨104, _⟩ => ⟨S262144, .i32⟩
  | .hbm, ⟨105, _⟩ => ⟨S262144, .i32⟩
  | .hbm, ⟨106, _⟩ => ⟨S262144x1, .i32⟩
  | .hbm, ⟨107, _⟩ => ⟨S67108864, .f32⟩
  | .hbm, ⟨108, _⟩ => ⟨S8192x8192, .f32⟩
  | .hbm, ⟨109, _⟩ => ⟨S8192x8192, .bf16⟩
  | .hbm, ⟨110, _⟩ => ⟨S1x8192, .f32⟩
  | .hbm, ⟨111, _⟩ => ⟨S8192, .f32⟩
  | .hbm, ⟨112, _⟩ => ⟨S1x8192, .f32⟩
  | .hbm, ⟨113, _⟩ => ⟨S256x8192, .f32⟩
  | .local _ .vmem, ⟨0, _⟩ => ⟨S256x8192, .bf16⟩
  | .local _ .vmem, ⟨1, _⟩ => ⟨S2048x2048, .bf16⟩
  | .local _ .vmem, ⟨2, _⟩ => ⟨S2048x2048, .bf16⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x8192, .bf16⟩
  | .local _ .vmem, ⟨9, _⟩ => ⟨S2048x2048, .bf16⟩
  | .local _ .vmem, ⟨10, _⟩ => ⟨S2048x2048, .bf16⟩
  | .local _ .vmem, ⟨11, _⟩ => ⟨S1x2048, .f32⟩
  | .local _ .vmem, ⟨12, _⟩ => ⟨S1x2048, .f32⟩
  | .local _ .vmem, ⟨13, _⟩ => ⟨S256x2048, .bf16⟩
  | .local _ .vmem, ⟨14, _⟩ => ⟨S256x2048, .bf16⟩
  | .local _ .vmem, ⟨15, _⟩ => ⟨S256x2048, .f32⟩
  | .local _ .vmem, ⟨16, _⟩ => ⟨S256x8192, .bf16⟩
  | .local _ .vmem, ⟨17, _⟩ => ⟨S2048x2048, .bf16⟩
  | .local _ .vmem, ⟨18, _⟩ => ⟨S2048x2048, .bf16⟩
  | .local _ .vmem, ⟨19, _⟩ => ⟨S1x2048, .f32⟩
  | .local _ .vmem, ⟨20, _⟩ => ⟨S1x2048, .f32⟩
  | .local _ .vmem, ⟨21, _⟩ => ⟨S256x2048, .bf16⟩
  | .local _ .vmem, ⟨22, _⟩ => ⟨S256x2048, .bf16⟩
  | .local _ .vmem, ⟨23, _⟩ => ⟨S256x2048, .f32⟩
  | .local _ .vmem, ⟨24, _⟩ => ⟨S256x8192, .bf16⟩
  | .local _ .vmem, ⟨25, _⟩ => ⟨S2048x2048, .bf16⟩
  | .local _ .vmem, ⟨26, _⟩ => ⟨S2048x2048, .bf16⟩
  | .local _ .vmem, ⟨27, _⟩ => ⟨S1x2048, .f32⟩
  | .local _ .vmem, ⟨28, _⟩ => ⟨S1x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_cst : Ref sig .tc := ⟨.hbm, 15, rfl⟩
abbrev main_call0_v9 : Ref sig .tc := ⟨.hbm, 16, rfl⟩
abbrev main_call0_c_0 : Ref sig .tc := ⟨.hbm, 17, rfl⟩
abbrev main_call0_v10 : Ref sig .tc := ⟨.hbm, 18, rfl⟩
abbrev main_call0_v11 : Ref sig .tc := ⟨.hbm, 19, rfl⟩
abbrev main_call0_c_1 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_v24 : Ref sig .tc := ⟨.hbm, 33, rfl⟩
abbrev main_call0_v25 : Ref sig .tc := ⟨.hbm, 34, rfl⟩
abbrev main_call0_v26 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_c_2 : Ref sig .tc := ⟨.hbm, 39, rfl⟩
abbrev main_call0_v30 : Ref sig .tc := ⟨.hbm, 40, rfl⟩
abbrev main_call0_v31 : Ref sig .tc := ⟨.hbm, 41, rfl⟩
abbrev main_call0_v32 : Ref sig .tc := ⟨.hbm, 42, rfl⟩
abbrev main_call0_cst_3 : Ref sig .tc := ⟨.hbm, 43, rfl⟩
abbrev main_call0_v33 : Ref sig .tc := ⟨.hbm, 44, rfl⟩
abbrev main_call0_c_4 : Ref sig .tc := ⟨.hbm, 45, rfl⟩
abbrev main_call0_v34 : Ref sig .tc := ⟨.hbm, 46, rfl⟩
abbrev main_call0_v35 : Ref sig .tc := ⟨.hbm, 47, rfl⟩
abbrev main_call0_c_5 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_v44 : Ref sig .tc := ⟨.hbm, 57, rfl⟩
abbrev main_call0_v45 : Ref sig .tc := ⟨.hbm, 58, rfl⟩
abbrev main_call0_v46 : Ref sig .tc := ⟨.hbm, 59, rfl⟩
abbrev main_call0_v47 : Ref sig .tc := ⟨.hbm, 60, rfl⟩
abbrev main_call0_v48 : Ref sig .tc := ⟨.hbm, 61, rfl⟩
abbrev main_call0_v49 : Ref sig .tc := ⟨.hbm, 62, rfl⟩
abbrev main_call0_v50 : Ref sig .tc := ⟨.hbm, 63, rfl⟩
abbrev main_call0_v51 : Ref sig .tc := ⟨.hbm, 64, rfl⟩
abbrev main_call0_v52 : Ref sig .tc := ⟨.hbm, 65, rfl⟩
abbrev main_call0_c_6 : Ref sig .tc := ⟨.hbm, 66, rfl⟩
abbrev main_call0_v53 : Ref sig .tc := ⟨.hbm, 67, rfl⟩
abbrev main_call0_v54 : Ref sig .tc := ⟨.hbm, 68, rfl⟩
abbrev main_call0_v55 : Ref sig .tc := ⟨.hbm, 69, rfl⟩
abbrev main_call0_cst_7 : Ref sig .tc := ⟨.hbm, 70, rfl⟩
abbrev main_call0_v56 : Ref sig .tc := ⟨.hbm, 71, rfl⟩
abbrev main_call0_c_8 : Ref sig .tc := ⟨.hbm, 72, rfl⟩
abbrev main_call0_v57 : Ref sig .tc := ⟨.hbm, 73, rfl⟩
abbrev main_call0_v58 : Ref sig .tc := ⟨.hbm, 74, rfl⟩
abbrev main_call0_c_9 : Ref sig .tc := ⟨.hbm, 75, rfl⟩
abbrev main_call0_v59 : Ref sig .tc := ⟨.hbm, 76, rfl⟩
abbrev main_call0_v60 : Ref sig .tc := ⟨.hbm, 77, rfl⟩
abbrev main_call0_v61 : Ref sig .tc := ⟨.hbm, 78, rfl⟩
abbrev main_call0_v62 : Ref sig .tc := ⟨.hbm, 79, rfl⟩
abbrev main_call0_v63 : Ref sig .tc := ⟨.hbm, 80, rfl⟩
abbrev main_call0_v64 : Ref sig .tc := ⟨.hbm, 81, rfl⟩
abbrev main_call0_v65 : Ref sig .tc := ⟨.hbm, 82, rfl⟩
abbrev main_call0_v66 : Ref sig .tc := ⟨.hbm, 83, rfl⟩
abbrev main_call0_v67 : Ref sig .tc := ⟨.hbm, 84, rfl⟩
abbrev main_call0_v68 : Ref sig .tc := ⟨.hbm, 85, rfl⟩
abbrev main_call0_v69 : Ref sig .tc := ⟨.hbm, 86, rfl⟩
abbrev main_call0_v70 : Ref sig .tc := ⟨.hbm, 87, rfl⟩
abbrev main_call0_v71 : Ref sig .tc := ⟨.hbm, 88, rfl⟩
abbrev main_call0_v72 : Ref sig .tc := ⟨.hbm, 89, rfl⟩
abbrev main_call0_v73 : Ref sig .tc := ⟨.hbm, 90, rfl⟩
abbrev main_call0_v74 : Ref sig .tc := ⟨.hbm, 91, rfl⟩
abbrev main_call0_v75 : Ref sig .tc := ⟨.hbm, 92, rfl⟩
abbrev main_call0_c_10 : Ref sig .tc := ⟨.hbm, 93, rfl⟩
abbrev main_call0_v76 : Ref sig .tc := ⟨.hbm, 94, rfl⟩
abbrev main_call0_v77 : Ref sig .tc := ⟨.hbm, 95, rfl⟩
abbrev main_call0_v78 : Ref sig .tc := ⟨.hbm, 96, rfl⟩
abbrev main_call0_cst_11 : Ref sig .tc := ⟨.hbm, 97, rfl⟩
abbrev main_call0_v79 : Ref sig .tc := ⟨.hbm, 98, rfl⟩
abbrev main_call0_c_12 : Ref sig .tc := ⟨.hbm, 99, rfl⟩
abbrev main_call0_v80 : Ref sig .tc := ⟨.hbm, 100, rfl⟩
abbrev main_call0_v81 : Ref sig .tc := ⟨.hbm, 101, rfl⟩
abbrev main_call0_c_13 : Ref sig .tc := ⟨.hbm, 102, rfl⟩
abbrev main_call0_v82 : Ref sig .tc := ⟨.hbm, 103, rfl⟩
abbrev main_call0_v83 : Ref sig .tc := ⟨.hbm, 104, rfl⟩
abbrev main_call0_v84 : Ref sig .tc := ⟨.hbm, 105, rfl⟩
abbrev main_call0_v85 : Ref sig .tc := ⟨.hbm, 106, rfl⟩
abbrev main_call0_v86 : Ref sig .tc := ⟨.hbm, 107, rfl⟩
abbrev main_call0_v87 : Ref sig .tc := ⟨.hbm, 108, rfl⟩
abbrev main_call0_v88 : Ref sig .tc := ⟨.hbm, 109, rfl⟩
abbrev main_call0_v89 : Ref sig .tc := ⟨.hbm, 110, rfl⟩
abbrev main_call0_v90 : Ref sig .tc := ⟨.hbm, 111, rfl⟩
abbrev main_call0_v91 : Ref sig .tc := ⟨.hbm, 112, rfl⟩
abbrev main_v0 : Ref sig .tc := ⟨.hbm, 113, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨3, ![1, 4, 4], ![false, false, false]⟩

def k0_mult1 (i : grid0.Coords) : BitVec 32 :=
  let arg2 : BitVec 32 := BitVec.ofNat 32 (i 2).val
  let c2048_i32 : BitVec 32 := 2048#32
  let v3 : BitVec 32 := Scalar.muli arg2 c2048_i32
  v3
def k0_off1 (i : grid0.Coords) : Fin 2 → Nat :=
  let c0 : Index := 0#32
  let arg2 : BitVec 32 := BitVec.ofNat 32 (i 2).val
  let c2048_i32 : BitVec 32 := 2048#32
  let v3 : BitVec 32 := Scalar.muli arg2 c2048_i32
  let v4 : BitVec 32 := v3
  let v5 : Index := Scalar.indexCast v4
  ![0, v5.toNat]
def k0_cond2 (i : grid0.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 4, 4], ![false, false, false]⟩

def k1_mult1 (i : grid1.Coords) : BitVec 32 :=
  let arg2 : BitVec 32 := BitVec.ofNat 32 (i 2).val
  let c2048_i32 : BitVec 32 := 2048#32
  let v3 : BitVec 32 := Scalar.muli arg2 c2048_i32
  v3
def k1_off1 (i : grid1.Coords) : Fin 2 → Nat :=
  let c0 : Index := 0#32
  let arg2 : BitVec 32 := BitVec.ofNat 32 (i 2).val
  let c2048_i32 : BitVec 32 := 2048#32
  let v3 : BitVec 32 := Scalar.muli arg2 c2048_i32
  let v4 : BitVec 32 := v3
  let v5 : Index := Scalar.indexCast v4
  ![0, v5.toNat]
def k1_cond2 (i : grid1.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S256x8192 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, false]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![1, 4, 4], ![false, false, false]⟩

def k2_mult1 (i : grid2.Coords) : BitVec 32 :=
  let arg2 : BitVec 32 := BitVec.ofNat 32 (i 2).val
  let c2048_i32 : BitVec 32 := 2048#32
  let v3 : BitVec 32 := Scalar.muli arg2 c2048_i32
  v3
def k2_off1 (i : grid2.Coords) : Fin 2 → Nat :=
  let c0 : Index := 0#32
  let arg2 : BitVec 32 := BitVec.ofNat 32 (i 2).val
  let c2048_i32 : BitVec 32 := 2048#32
  let v3 : BitVec 32 := Scalar.muli arg2 c2048_i32
  let v4 : BitVec 32 := v3
  let v5 : Index := Scalar.indexCast v4
  ![0, v5.toNat]
def k2_cond2 (i : grid2.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S256x8192 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, false]

abbrev stage2_1 : Fin 2 → Memref sig .tc .vmem S2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 4, 4], ![false, false, false]⟩

def k3_mult1 (i : grid3.Coords) : BitVec 32 :=
  let arg2 : BitVec 32 := BitVec.ofNat 32 (i 2).val
  let c2048_i32 : BitVec 32 := 2048#32
  let v3 : BitVec 32 := Scalar.muli arg2 c2048_i32
  v3
def k3_off1 (i : grid3.Coords) : Fin 2 → Nat :=
  let c0 : Index := 0#32
  let arg2 : BitVec 32 := BitVec.ofNat 32 (i 2).val
  let c2048_i32 : BitVec 32 := 2048#32
  let v3 : BitVec 32 := Scalar.muli arg2 c2048_i32
  let v4 : BitVec 32 := v3
  let v5 : Index := Scalar.indexCast v4
  ![0, v5.toNat]
def k3_cond2 (i : grid3.Coords) : BitVec 1 :=
  let arg2 : BitVec 32 := BitVec.ofNat 32 (i 2).val
  let c3_i32 : BitVec 32 := 3#32
  let v16 : BitVec 1 := Scalar.cmpi .eq arg2 c3_i32
  let v17 : BitVec 32 := Scalar.extui v16
  let c0_i32_7 : BitVec 32 := 0#32
  let v18 : BitVec 1 := Scalar.cmpi .ne v17 c0_i32_7
  v18

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S256x8192 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, false]

abbrev stage3_1 : Fin 2 → Memref sig .tc .vmem S2048x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, false]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

class Facts₀ : Prop where
  slices_S4x262144_S1x262144_0_0 : S4x262144.Slices ![0, 0] S1x262144
  shapeCasts_S1x262144_S262144 : S1x262144.ShapeCasts S262144
  bcast_S_S262144 : S_.BroadcastsInDim S262144 (![] : Fin 0 → Fin S262144.rank)
  bcast_S_S67108864 : S_.BroadcastsInDim S67108864 (![] : Fin 0 → Fin S67108864.rank)
  bcast_S262144_S262144x1_0 : S262144.BroadcastsInDim S262144x1 (![0] : Fin 1 → Fin S262144x1.rank)
  shapeCasts_S67108864_S8192x8192 : S67108864.ShapeCasts S8192x8192
  bitsLt_bf16_f32 : FTy.bits .bf16 < FTy.bits .f32
  slices_S4x8192_S1x8192_0_0 : S4x8192.Slices ![0, 0] S1x8192
  shapeCasts_S1x8192_S8192 : S1x8192.ShapeCasts S8192
  shapeCasts_S8192_S1x8192 : S8192.ShapeCasts S1x8192
  slices_S4x262144_S1x262144_1_0 : S4x262144.Slices ![1, 0] S1x262144
  slices_S4x8192_S1x8192_1_0 : S4x8192.Slices ![1, 0] S1x8192
  slices_S4x262144_S1x262144_2_0 : S4x262144.Slices ![2, 0] S1x262144
  slices_S4x8192_S1x8192_2_0 : S4x8192.Slices ![2, 0] S1x8192
  slices_S4x262144_S1x262144_3_0 : S4x262144.Slices ![3, 0] S1x262144
  slices_S4x8192_S1x8192_3_0 : S4x8192.Slices ![3, 0] S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  packedbf16_S256x2048_S256x2048_0_0 : (Rect.unit (s := S256x2048) ![0, 0] S256x2048.size inb_S256x2048_S256x2048_0_0).PackedRows (EltTy.packing .bf16)
  scatter_S67108864_S262144x1_S262144_n_0_0_1_wf : ScatterDims.WF S67108864 S262144x1 S262144 [] [0] [0] 1
  dot_S256x2048_S2048x2048_S256x2048_1_0_0_1_n_n_wf : DotDims.WF S256x2048 S2048x2048 S256x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S256x2048.size a ≤ S256x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S256x8192.size a
  hwx0_0 : ∀ i : grid0.Coords, EltTy.bits .bf16 = 32 ∨ (Rect.block (s := S256x8192) S256x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .bf16 = 32 ∨ (Rect.block (s := S8192x8192) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x8192.size a
  hwx0_3 : ∀ i : grid0.Coords, EltTy.bits .bf16 = 32 ∨ (Rect.block (s := S256x8192) S256x2048.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S256x2048.size a ≤ S256x8192.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S256x8192.size a
  hwx1_0 : ∀ i : grid1.Coords, EltTy.bits .bf16 = 32 ∨ (Rect.block (s := S256x8192) S256x8192.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S8192x8192.size a
  hwx1_1 : ∀ i : grid1.Coords, EltTy.bits .bf16 = 32 ∨ (Rect.block (s := S8192x8192) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x8192.size a
  hwx1_2 : ∀ i : grid1.Coords, EltTy.bits .f32 = 32 ∨ (Rect.block (s := S1x8192) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S256x8192.size a
  hwx1_3 : ∀ i : grid1.Coords, EltTy.bits .bf16 = 32 ∨ (Rect.block (s := S256x8192) S256x2048.size (cc1_transform_3 i) (hinb1_3 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S256x2048.size a ≤ S256x8192.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S256x8192.size a
  hwx2_0 : ∀ i : grid2.Coords, EltTy.bits .bf16 = 32 ∨ (Rect.block (s := S256x8192) S256x8192.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S8192x8192.size a
  hwx2_1 : ∀ i : grid2.Coords, EltTy.bits .bf16 = 32 ∨ (Rect.block (s := S8192x8192) S2048x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x8192.size a
  hwx2_2 : ∀ i : grid2.Coords, EltTy.bits .f32 = 32 ∨ (Rect.block (s := S1x8192) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S256x8192.size a
  hwx2_3 : ∀ i : grid2.Coords, EltTy.bits .bf16 = 32 ∨ (Rect.block (s := S256x8192) S256x2048.size (cc2_transform_3 i) (hinb2_3 i)).WholeWords (EltTy.packing .bf16)
  hrank3 : 0 < grid3.rank
  k3_mult1_dvd : ∀ i : grid3.Coords, 128 ∣ (k3_mult1 i).toNat
  k3_off1_inb : ∀ i : grid3.Coords, ∀ a, (k3_off1 i) a + S256x2048.size a ≤ S256x8192.size a
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S256x8192.size a
  hwx3_0 : ∀ i : grid3.Coords, EltTy.bits .bf16 = 32 ∨ (Rect.block (s := S256x8192) S256x8192.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S8192x8192.size a
  hwx3_1 : ∀ i : grid3.Coords, EltTy.bits .bf16 = 32 ∨ (Rect.block (s := S8192x8192) S2048x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x2048.size a ≤ S1x8192.size a
  hwx3_2 : ∀ i : grid3.Coords, EltTy.bits .f32 = 32 ∨ (Rect.block (s := S1x8192) S1x2048.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x2048.size a ≤ S256x8192.size a
  hwx3_3 : ∀ i : grid3.Coords, EltTy.bits .f32 = 32 ∨ (Rect.block (s := S256x8192) S256x2048.size (cc3_transform_3 i) (hinb3_3 i)).WholeWords (EltTy.packing .f32)

variable [Facts₀]

def scatter_S67108864_S262144x1_S262144_n_0_0_1 : ScatterDims S67108864 S262144x1 S262144 where
  updateWindowDims := []
  insertedWindowDims := [0]
  scatterDimsToOperandDims := [0]
  indexVectorDim := 1
  wf := scatter_S67108864_S262144x1_S262144_n_0_0_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_call0_v19) S256x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v22) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_call0_v23) S256x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_call0_v42) S2048x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v45) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v46) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_call0_v46) S256x8192.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v65) S2048x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v68) S1x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v69) S256x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_call0_v69) S256x8192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_call0_v88) S2048x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v91) S1x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S256x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S256x8192 : Shape := ⟨2, ![256, 8192]⟩
abbrev S4x262144 : Shape := ⟨2, ![4, 262144]⟩
abbrev S4x8192 : Shape := ⟨2, ![4, 8192]⟩
abbrev S1x262144 : Shape := ⟨2, ![1, 262144]⟩
abbrev S262144 : Shape := ⟨1, ![262144]⟩
abbrev S_ : Shape := ⟨0, ![]⟩
abbrev S262144x1 : Shape := ⟨2, ![262144, 1]⟩
abbrev S256x262144 : Shape := ⟨2, ![256, 262144]⟩
abbrev S262144x256 : Shape := ⟨2, ![262144, 256]⟩
abbrev S8192x256 : Shape := ⟨2, ![8192, 256]⟩
abbrev S1x8192 : Shape := ⟨2, ![1, 8192]⟩
abbrev S8192 : Shape := ⟨1, ![8192]⟩

abbrev nBuf : Space → Nat
  | .hbm => 133
  | .vmem => 0
  | .smem => 0
  | _ => 0

abbrev hbmTy0_0 (i : Nat) : BufTy := match i % 128 with
  | 0 => ⟨S256x8192, .f32⟩
  | 1 => ⟨S4x262144, .f32⟩
  | 2 => ⟨S4x8192, .f32⟩
  | 3 => ⟨S4x262144, .i32⟩
  | 4 => ⟨S4x262144, .i32⟩
  | 5 => ⟨S1x262144, .i32⟩
  | 6 => ⟨S262144, .i32⟩
  | 7 => ⟨S1x262144, .i32⟩
  | 8 => ⟨S262144, .i32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S256x262144, .f32⟩
  | 18 => ⟨S1x262144, .f32⟩
  | 19 => ⟨S262144, .f32⟩
  | 20 => ⟨S1x262144, .f32⟩
  | 21 => ⟨S256x262144, .f32⟩
  | 22 => ⟨S256x262144, .f32⟩
  | 23 => ⟨S262144x256, .f32⟩
  | 24 => ⟨S_, .f32⟩
  | 25 => ⟨S8192x256, .f32⟩
  | 26 => ⟨S262144x1, .i32⟩
  | 27 => ⟨S8192x256, .f32⟩
  | 28 => ⟨S256x8192, .f32⟩
  | 29 => ⟨S1x8192, .f32⟩
  | 30 => ⟨S8192, .f32⟩
  | 31 => ⟨S1x8192, .f32⟩
  | 32 => ⟨S256x8192, .f32⟩
  | 33 => ⟨S256x8192, .f32⟩
  | 34 => ⟨S_, .f32⟩
  | 35 => ⟨S256x8192, .f32⟩
  | 36 => ⟨S256x8192, .f32⟩
  | 37 => ⟨S1x262144, .i32⟩
  | 38 => ⟨S262144, .i32⟩
  | 39 => ⟨S1x262144, .i32⟩
  | 40 => ⟨S262144, .i32⟩
  | 41 => ⟨S_, .i32⟩
  | 42 => ⟨S262144, .i32⟩
  | 43 => ⟨S262144, .i1⟩
  | 44 => ⟨S_, .i32⟩
  | 45 => ⟨S262144, .i32⟩
  | 46 => ⟨S262144, .i32⟩
  | 47 => ⟨S262144, .i32⟩
  | 48 => ⟨S262144x1, .i32⟩
  | 49 => ⟨S256x262144, .f32⟩
  | 50 => ⟨S1x262144, .f32⟩
  | 51 => ⟨S262144, .f32⟩
  | 52 => ⟨S1x262144, .f32⟩
  | 53 => ⟨S256x262144, .f32⟩
  | 54 => ⟨S256x262144, .f32⟩
  | 55 => ⟨S262144x256, .f32⟩
  | 56 => ⟨S_, .f32⟩
  | 57 => ⟨S8192x256, .f32⟩
  | 58 => ⟨S262144x1, .i32⟩
  | 59 => ⟨S8192x256, .f32⟩
  | 60 => ⟨S256x8192, .f32⟩
  | 61 => ⟨S1x8192, .f32⟩
  | 62 => ⟨S8192, .f32⟩
  | 63 => ⟨S1x8192, .f32⟩
  | 64 => ⟨S256x8192, .f32⟩
  | 65 => ⟨S256x8192, .f32⟩
  | 66 => ⟨S_, .f32⟩
  | 67 => ⟨S256x8192, .f32⟩
  | 68 => ⟨S256x8192, .f32⟩
  | 69 => ⟨S1x262144, .i32⟩
  | 70 => ⟨S262144, .i32⟩
  | 71 => ⟨S1x262144, .i32⟩
  | 72 => ⟨S262144, .i32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S256x262144, .f32⟩
  | 82 => ⟨S1x262144, .f32⟩
  | 83 => ⟨S262144, .f32⟩
  | 84 => ⟨S1x262144, .f32⟩
  | 85 => ⟨S256x262144, .f32⟩
  | 86 => ⟨S256x262144, .f32⟩
  | 87 => ⟨S262144x256, .f32⟩
  | 88 => ⟨S_, .f32⟩
  | 89 => ⟨S8192x256, .f32⟩
  | 90 => ⟨S262144x1, .i32⟩
  | 91 => ⟨S8192x256, .f32⟩
  | 92 => ⟨S256x8192, .f32⟩
  | 93 => ⟨S1x8192, .f32⟩
  | 94 => ⟨S8192, .f32⟩
  | 95 => ⟨S1x8192, .f32⟩
  | 96 => ⟨S256x8192, .f32⟩
  | 97 => ⟨S256x8192, .f32⟩
  | 98 => ⟨S_, .f32⟩
  | 99 => ⟨S256x8192, .f32⟩
  | 100 => ⟨S256x8192, .f32⟩
  | 101 => ⟨S1x262144, .i32⟩
  | 102 => ⟨S262144, .i32⟩
  | 103 => ⟨S1x262144, .i32⟩
  | 104 => ⟨S262144, .i32⟩
  | 105 => ⟨S_, .i32⟩
  | 106 => ⟨S262144, .i32⟩
  | 107 => ⟨S262144, .i1⟩
  | 108 => ⟨S_, .i32⟩
  | 109 => ⟨S262144, .i32⟩
  | 110 => ⟨S262144, .i32⟩
  | 111 => ⟨S262144, .i32⟩
  | 112 => ⟨S262144x1, .i32⟩
  | 113 => ⟨S256x262144, .f32⟩
  | 114 => ⟨S1x262144, .f32⟩
  | 115 => ⟨S262144, .f32⟩
  | 116 => ⟨S1x262144, .f32⟩
  | 117 => ⟨S256x262144, .f32⟩
  | 118 => ⟨S256x262144, .f32⟩
  | 119 => ⟨S262144x256, .f32⟩
  | 120 => ⟨S_, .f32⟩
  | 121 => ⟨S8192x256, .f32⟩
  | 122 => ⟨S262144x1, .i32⟩
  | 123 => ⟨S8192x256, .f32⟩
  | 124 => ⟨S256x8192, .f32⟩
  | 125 => ⟨S1x8192, .f32⟩
  | 126 => ⟨S8192, .f32⟩
  | 127 => ⟨S1x8192, .f32⟩
  | _ => ⟨S256x8192, .f32⟩

abbrev hbmTy0_1 (i : Nat) : BufTy := match i % 128 with
  | 0 => ⟨S256x8192, .f32⟩
  | 1 => ⟨S256x8192, .f32⟩
  | 2 => ⟨S_, .f32⟩
  | 3 => ⟨S256x8192, .f32⟩
  | 4 => ⟨S256x8192, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_call1_cst : Ref sig .tc := ⟨.hbm, 66, rfl⟩
abbrev main_call1_v0 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c_4 : Ref sig .tc := ⟨.hbm, 73, rfl⟩
abbrev main_v58 : Ref sig .tc := ⟨.hbm, 74, rfl⟩
abbrev main_v59 : Ref sig .tc := ⟨.hbm, 75, rfl⟩
abbrev main_c_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_6 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_call2_cst : Ref sig .tc := ⟨.hbm, 98, rfl⟩
abbrev main_call2_v0 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_c_7 : Ref sig .tc := ⟨.hbm, 105, rfl⟩
abbrev main_v85 : Ref sig .tc := ⟨.hbm, 106, rfl⟩
abbrev main_v86 : Ref sig .tc := ⟨.hbm, 107, rfl⟩
abbrev main_c_8 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_9 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_call3_cst : Ref sig .tc := ⟨.hbm, 130, rfl⟩
abbrev main_call3_v0 : Ref sig .tc := ⟨.hbm, 131, rfl⟩
abbrev main_v107 : Ref sig .tc := ⟨.hbm, 132, rfl⟩

abbrev nD : Nat := 1
abbrev τ : Topo := Topo.v7x

variable {F : FTy → Type} [FloatOps F]

class Facts₀ : Prop where
  slices_S4x262144_S1x262144_0_0 : S4x262144.Slices ![0, 0] S1x262144
  shapeCasts_S1x262144_S262144 : S1x262144.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  bcast_S262144_S1x262144_1 : S262144.BroadcastsInDim S1x262144 (![1] : Fin 1 → Fin S1x262144.rank)
  bcast_S1x262144_S256x262144_0_1 : S1x262144.BroadcastsInDim S256x262144 (![0, 1] : Fin 2 → Fin S256x262144.rank)
  transposes_S256x262144_S262144x256_1_0 : S256x262144.Transposes [1, 0] S262144x256
  bcast_S_S8192x256 : S_.BroadcastsInDim S8192x256 (![] : Fin 0 → Fin S8192x256.rank)
  transposes_S8192x256_S256x8192_1_0 : S8192x256.Transposes [1, 0] S256x8192
  slices_S4x8192_S1x8192_0_0 : S4x8192.Slices ![0, 0] S1x8192
  shapeCasts_S1x8192_S8192 : S1x8192.ShapeCasts S8192
  bcast_S8192_S1x8192_1 : S8192.BroadcastsInDim S1x8192 (![1] : Fin 1 → Fin S1x8192.rank)
  bcast_S1x8192_S256x8192_0_1 : S1x8192.BroadcastsInDim S256x8192 (![0, 1] : Fin 2 → Fin S256x8192.rank)
  bcast_S_S256x8192 : S_.BroadcastsInDim S256x8192 (![] : Fin 0 → Fin S256x8192.rank)
  slices_S4x262144_S1x262144_1_0 : S4x262144.Slices ![1, 0] S1x262144
  slices_S4x8192_S1x8192_1_0 : S4x8192.Slices ![1, 0] S1x8192
  slices_S4x262144_S1x262144_2_0 : S4x262144.Slices ![2, 0] S1x262144
  slices_S4x8192_S1x8192_2_0 : S4x8192.Slices ![2, 0] S1x8192
  slices_S4x262144_S1x262144_3_0 : S4x262144.Slices ![3, 0] S1x262144
  slices_S4x8192_S1x8192_3_0 : S4x8192.Slices ![3, 0] S1x8192
  gather_S256x8192_S262144x1_S256x262144_0_1_n_n_1_1_2561_wf : GatherDims.WF S256x8192 S262144x1 S256x262144 [0] [1] [] [1] [] 1 ![256, 1]
  scatter_S8192x256_S262144x1_S262144x256_1_0_0_1_wf : ScatterDims.WF S8192x256 S262144x1 S262144x256 [1] [0] [0] 1

variable [Facts₀]

def gather_S256x8192_S262144x1_S256x262144_0_1_n_n_1_1_2561 : GatherDims S256x8192 S262144x1 S256x262144 where
  offsetDims := [0]
  collapsedSliceDims := [1]
  operandBatchingDims := []
  startIndicesBatchingDims := []
  startIndexMap := [1]
  indexVectorDim := 1
  sliceSizes := ![256, 1]
  wf := gather_S256x8192_S262144x1_S256x262144_0_1_n_n_1_1_2561_wf
def scatter_S8192x256_S262144x1_S262144x256_1_0_0_1 : ScatterDims S8192x256 S262144x1 S262144x256 where
  updateWindowDims := [1]
  insertedWindowDims := [0]
  scatterDimsToOperandDims := [0]
  indexVectorDim := 1
  wf := scatter_S8192x256_S262144x1_S262144x256_1_0_0_1_wf

class Facts : Prop extends Facts₀ where

variable [Facts]
-- ==== Proof.K0Body.lean ====
import proofs.«427408_j57458072485900_3_alg».proof.Proof.Gen.KernelIdeal.Launch
import proofs.«427408_j57458072485900_3_alg».proof.Proof.Gen.KernelIdeal.Skeleton
import proofs.«427408_j57458072485900_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev isFirst0 (i : grid0.Coords) : Prop := (Scalar.cmpi .ne (Scalar.extui (Scalar.cmpi .eq (BitVec.ofNat 32 (i 2).val) 0#32)) 0#32) = 1#1
abbrev isLast0 (i : grid0.Coords) : Prop := k0_cond2 i = 1#1

theorem zeroOff0 : (![0, 0] : Fin 2 → ℕ) = fun _ => 0 := by funext a; fin_cases a <;> rfl

def xcols0 (i : grid0.Coords) (x0 : Vec F S256x8192 .bf16) : Vec F S256x2048 .bf16 :=
  View.ld x0 (Rect.unit (s := S256x8192) (k0_off1 i) S256x2048.size (k0_off1_inb i))

/-- The accumulator after a point: the block product added to zero at a first reduction step, to what it held otherwise. -/
def step0 (i : grid0.Coords) (x0 : Vec F S256x8192 .bf16) (xs0 : Vec F S256x2048 .f32) (x1 : Vec F S2048x2048 .bf16) : Vec F S256x2048 .f32 :=
  k0_pay2 (xcols0 i x0) (if isFirst0 i then k0_pay1 (F := F) else xs0) x1

set_option maxHeartbeats 3000000 in
/-- One grid point of the body, whichever of its two branches are taken. -/
theorem run0 (c : Dev nD) (i : grid0.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .bf16) (xs0 : Vec F S256x2048 .f32)
    (hx : isFirst0 i → ¬isLast0 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast0 i then k0_pay3 (step0 i x0 xs0 x1) x2 else xo)
                ∗ owns (c : Thread nD τ) arg7 fullShare (step0 i x0 xs0 x1)) -∗ K ⟨⟩))
          ⊢ wp frame (wpE (defs₀ (F := F)) Variants.none c none) E (cc0__matmul_relu_kernel i arg3 harg3 arg4 harg4 arg5 harg5 arg6 harg6 arg7 harg7) K := by
  unfold step0
  by_cases hc0 : isFirst0 i <;> by_cases hc1 : isLast0 i
  · exact absurd hc1 (hx hc0)
  all_goals first | rw [if_pos hc0] | rw [if_neg hc0]
  all_goals first | rw [if_pos hc1] | rw [if_neg hc1]
  all_goals (
    simp only [cc0__matmul_relu_kernel_eq_skeleton]; unfold cc0__matmul_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      first
      | ( sl_unfold_words
          rw [View.read_writes_eq_canon _ _ _ (fun y => ⟨_, List.mem_singleton_self _, View.mem_set_unit_zero zeroOff0 inb_S256x2048_S256x2048_0_0 y⟩), View.canon_unit_zero zeroOff0]
          simp only [View.readAt_eq_ld, harg3.read_unread, harg4.read_unread, harg5.read_unread, harg7.read_unread, View.ld_unit_zero (S := S256x2048) zeroOff0, View.ld_unit_zero (S := S2048x2048) zeroOff0, View.ld_unit_zero (S := S1x2048) zeroOff0, View.readCov_unit_zero (S := S256x2048) _ zeroOff0]
          rfl )
      | exact hf3
    iexists _; isplitr
    swap; · iexact HS0
    ipureintro
    sl_unfold_words
    first
    | rw [View.read_writes_eq_canon _ _ _ (fun y => ⟨_, List.mem_singleton_self _, View.mem_set_unit_zero zeroOff0 inb_S256x2048_S256x2048_0_0 y⟩), View.canon_unit_zero zeroOff0]
    | rw [View.read_writes_eq_canon _ _ _ (fun y => ⟨_, List.mem_cons.mpr (Or.inl rfl), View.mem_set_unit_zero zeroOff0 inb_S256x2048_S256x2048_0_0 y⟩), View.canon_cons_unit_zero zeroOff0]
    simp only [View.readAt_eq_ld, harg3.read_unread, harg4.read_unread, harg7.read_unread, View.ld_unit_zero (S := S256x2048) zeroOff0, View.ld_unit_zero (S := S2048x2048) zeroOff0, View.readCov_unit_zero (S := S256x2048) _ zeroOff0]
    try rfl )

end Cert.KernelIdeal.Mm

end
-- ==== Proof.K0Data.lean ====
import proofs.«427408_j57458072485900_3_alg».proof.Proof.K0Body

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Over the sixteen points t = 4 j + k: the first branch is taken at k = 0, the second at k = 3, and window 3 is idle away from k = 3. -/
theorem gridFacts0 : ∀ t : Fin cfg0.N, (isFirst0 (grid0.coords t) ↔ t.val % 4 = 0) ∧ (isLast0 (grid0.coords t) ↔ t.val % 4 = 3)
    ∧ cfg0.idle 0 (grid0.coords t) = false ∧ cfg0.idle 1 (grid0.coords t) = false ∧ cfg0.idle 2 (grid0.coords t) = false
    ∧ cfg0.idle 3 (grid0.coords t) = !decide (t.val % 4 = 3) ∧ (cfg0.win 3).flush t = decide (t.val % 4 = 3) :=
  (by decide +kernel : ∀ t : Fin grid0.N, _)

abbrev ms0_0 (t : Fin cfg0.N) : Memref sig .tc .vmem S256x8192 .bf16 := win0_0.stage (cfg0.slots t 0)
abbrev ms0_1 (t : Fin cfg0.N) : Memref sig .tc .vmem S2048x2048 .bf16 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S256x2048 .bf16 := win0_3.stage (cfg0.slots t 3)
abbrev scM0 : Memref sig .tc .vmem S256x2048 .f32 := Memref.whole cc0_scratch0

/-- The accumulator after point n: the point's block product added to zero at k = 0, to what point n - 1 left otherwise. -/
def acc0 (c : Dev nD) : (n : ℕ) → n < cfg0.N → Vec F S256x2048 .f32
  | 0, hn => k0_pay2 (xcols0 (grid0.coords ⟨0, hn⟩) (iblk0 V c 0 ⟨0, hn⟩)) (k0_pay1 (F := F)) (iblk0 V c 1 ⟨0, hn⟩)
  | n + 1, hn => k0_pay2 (xcols0 (grid0.coords ⟨n + 1, hn⟩) (iblk0 V c 0 ⟨n + 1, hn⟩))
      (if (n + 1) % 4 = 0 then (k0_pay1 (F := F)) else acc0 c n (Nat.lt_of_succ_lt hn)) (iblk0 V c 1 ⟨n + 1, hn⟩)

theorem acc0_first (c : Dev nD) (t : Fin cfg0.N) (h0 : t.val % 4 = 0) :
    acc0 V c t.val t.isLt = k0_pay2 (xcols0 (grid0.coords t) (iblk0 V c 0 t)) (k0_pay1 (F := F)) (iblk0 V c 1 t) := by
  obtain ⟨n, hn⟩ := t
  cases n with
  | zero => rfl
  | succ n => simp only [acc0]; rw [if_pos h0]

theorem acc0_next (c : Dev nD) (t : Fin cfg0.N) (h0 : t.val % 4 ≠ 0) :
    acc0 V c t.val t.isLt = k0_pay2 (xcols0 (grid0.coords t) (iblk0 V c 0 t))
      (acc0 V c (t.val - 1) (Nat.lt_of_le_of_lt (Nat.sub_le _ _) t.isLt)) (iblk0 V c 1 t) := by
  obtain ⟨n, hn⟩ := t
  cases n with
  | zero => exact absurd rfl h0
  | succ n => simp only [acc0]; rw [if_neg h0]; rfl

/-- The body's step from what the point before left is the accumulator after the point. -/
theorem accStep0 (c : Dev nD) (t : Fin cfg0.N) (d : Vec F S256x2048 .f32)
    (hd : ∀ h : t.val - 1 < cfg0.N, t.val ≠ 0 → d = acc0 V c (t.val - 1) h) :
    step0 (grid0.coords t) (iblk0 V c 0 t) d (iblk0 V c 1 t) = acc0 V c t.val t.isLt := by
  unfold step0
  by_cases h0 : t.val % 4 = 0
  · rw [if_pos ((gridFacts0 t).1.mpr h0), acc0_first V c t h0]
  · rw [if_neg (fun h => h0 ((gridFacts0 t).1.mp h)), acc0_next V c t h0, hd _ (fun h => h0 (by rw [h]))]

theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before position n: what the launch hands over, with the accumulator at what point n - 1 left when there is one. -/
def Phi0 (c : Dev nD) (n : ℕ) : sProp 𝕄 :=
  iprop(iprop((∃ d, ⌜∀ h : n - 1 < cfg0.N, n ≠ 0 → d = acc0 V c (n - 1) h⌝ ∗ owns (c : Thread nD τ) scM0 fullShare d)
      ∗ Pipeline.scopedRestBut (Ix := Unit) (Name := ℕ) (U := UR sig nD τ) (Lvl := ℕ) (Val := Elt F) spec0 c [cc0_scratch0]) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := Phi0 V c t.val
  q _ := fullShare
  owed _ := 0

/-- Each input window's buffer holds its block of the array at every point. -/
theorem before0 (c : Dev nD) (t : Fin cfg0.N) : (∀ d, (dat0 V c).before 0 t d = iblk0 V c 0 t)
    ∧ (∀ d, (dat0 V c).before 1 t d = iblk0 V c 1 t) ∧ (∀ d, (dat0 V c).before 2 t d = iblk0 V c 2 t) := by
  have hA : ∀ w, (dat0 V c).A w = V c (Pipeline.arrRef spec0 w) := fun _ => rfl
  refine ⟨fun d => ?_, fun d => ?_, fun d => ?_⟩ <;>
  exact ((dat0 V c).before_in_eq_fetched _ rfl (fun _ => rfl) (fun _ _ _ => rfl)
    (fun t => by rw [show (dat0 V c).after _ t = iblk0 V c _ t from rfl]; unfold Dat.blockOf iblk0; rw [hA]; try rfl) t d).trans
    (by unfold Dat.fetched Dat.blockOf iblk0; rw [hA]; try rfl)

end Cert.KernelIdeal.Mm

end
-- ==== Proof.K0Oblig.lean ====
import proofs.«427408_j57458072485900_3_alg».proof.Proof.K0Data

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves0 (c : Dev nD) (t : Fin cfg0.N) (d) :
    owns (c : Thread nD τ) (ms0_3 t) fullShare (if isLast0 (grid0.coords t) then k0_pay3 (acc0 V c t.val t.isLt) (iblk0 V c 2 t) else (dat0 V c).before 3 t d)
      ⊢ (dat0 V c).leavesExact 3 t := by
  obtain ⟨-, hL, -, -, -, i3, f3⟩ := gridFacts0 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  obtain ⟨hF, hL, l0, l1, l2, -, -⟩ := gridFacts0 t
  unfold bodyAt0
  simp only [(before0 V c t).1, (before0 V c t).2.1, (before0 V c t).2.2]
  rw [show (dat0 V c).owesAt () t.succ = (dat0 V c).owesAt () t.castSucc from rfl,
    show (dat0 V c).Φ t.succ = Phi0 V c (t.val + 1) from rfl, show (dat0 V c).Φ t.castSucc = Phi0 V c t.val from rfl,
    show (dat0 V c).leavesExact 0 t = owns (c : Thread nD τ) (ms0_0 t) fullShare (iblk0 V c 0 t) from by unfold Dat.leavesExact; rw [l0]; rfl,
    show (dat0 V c).leavesExact 1 t = owns (c : Thread nD τ) (ms0_1 t) fullShare (iblk0 V c 1 t) from by unfold Dat.leavesExact; rw [l1]; rfl,
    show (dat0 V c).leavesExact 2 t = owns (c : Thread nD τ) (ms0_2 t) fullShare (iblk0 V c 2 t) from by unfold Dat.leavesExact; rw [l2]; rfl]
  unfold Phi0
  iintro ⟨⟨⟨⟨%d, %hd, HS⟩, Hr⟩, Hg⟩, Ho, ⟨%d0, H0⟩, ⟨%d1, H1⟩, ⟨%d2, H2⟩, ⟨%d3, H3⟩⟩
  iapply (run0 c (grid0.coords t) _ _ _ _ _ _ _ _ scM0 (Memref.isWhole_whole _) (iblk0 V c 0 t) (iblk0 V c 1 t) (iblk0 V c 2 t)
    ((dat0 V c).before 3 t d3) d (fun h1 h2 => by have := hF.mp h1; have := hL.mp h2; omega) Set.univ _)
  rw [accStep0 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves0 V c t d3); iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq, show (dat0 V c).Φ 0 = Phi0 V c 0 from rfl]; unfold Phi0
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout0 (c : Dev nD) : (dat0 V c).Φ (Fin.last cfg0.N) ⊢ Pipeline.ΦA spec0 c := by
  rw [PhiA0_eq, show (dat0 V c).Φ (Fin.last cfg0.N) = Phi0 V c cfg0.N from rfl]; unfold Phi0
  iintro ⟨⟨⟨%d, -, HS⟩, Hr⟩, Hg⟩
  isplitl [HS Hr]
  · isplitl [HS]; · iexists d; iexact HS
    iexact Hr
  iexact Hg

end Cert.KernelIdeal.Mm

end
-- ==== Proof.K1Body.lean ====
import proofs.«427408_j57458072485900_3_alg».proof.Proof.K0Body

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

abbrev isFirst1 (i : grid1.Coords) : Prop := (Scalar.cmpi .ne (Scalar.extui (Scalar.cmpi .eq (BitVec.ofNat 32 (i 2).val) 0#32)) 0#32) = 1#1
abbrev isLast1 (i : grid1.Coords) : Prop := k1_cond2 i = 1#1

def xcols1 (i : grid1.Coords) (x0 : Vec F S256x8192 .bf16) : Vec F S256x2048 .bf16 :=
  View.ld x0 (Rect.unit (s := S256x8192) (k1_off1 i) S256x2048.size (k1_off1_inb i))

def step1 (i : grid1.Coords) (x0 : Vec F S256x8192 .bf16) (xs0 : Vec F S256x2048 .f32) (x1 : Vec F S2048x2048 .bf16) : Vec F S256x2048 .f32 :=
  k1_pay2 (xcols1 i x0) (if isFirst1 i then k1_pay1 (F := F) else xs0) x1

/-- This call's body is the first call's, name for name. -/
theorem run1 (c : Dev nD) (i : grid1.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .bf16) (xs0 : Vec F S256x2048 .f32)
    (hx : isFirst1 i → ¬isLast1 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast1 i then k1_pay3 (step1 i x0 xs0 x1) x2 else xo)
                ∗ owns (c : Thread nD τ) arg7 fullShare (step1 i x0 xs0 x1)) -∗ K ⟨⟩))
          ⊢ wp frame (wpE (defs₀ (F := F)) Variants.none c none) E (cc1__matmul_relu_kernel i arg3 harg3 arg4 harg4 arg5 harg5 arg6 harg6 arg7 harg7) K :=
  run0 c i arg3 harg3 arg4 harg4 arg5 harg5 arg6 harg6 arg7 harg7 x0 x1 x2 xo xs0 hx E K

end Cert.KernelIdeal.Mm

end
-- ==== Proof.K1Data.lean ====
import proofs.«427408_j57458072485900_3_alg».proof.Proof.K1Body

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Over the sixteen points t = 4 j + k: the first branch is taken at k = 0, the second at k = 3, and window 3 is idle away from k = 3. -/
theorem gridFacts1 : ∀ t : Fin cfg1.N, (isFirst1 (grid1.coords t) ↔ t.val % 4 = 0) ∧ (isLast1 (grid1.coords t) ↔ t.val % 4 = 3)
    ∧ cfg1.idle 0 (grid1.coords t) = false ∧ cfg1.idle 1 (grid1.coords t) = false ∧ cfg1.idle 2 (grid1.coords t) = false
    ∧ cfg1.idle 3 (grid1.coords t) = !decide (t.val % 4 = 3) ∧ (cfg1.win 3).flush t = decide (t.val % 4 = 3) :=
  (by decide +kernel : ∀ t : Fin grid1.N, _)

abbrev ms1_0 (t : Fin cfg1.N) : Memref sig .tc .vmem S256x8192 .bf16 := win1_0.stage (cfg1.slots t 0)
abbrev ms1_1 (t : Fin cfg1.N) : Memref sig .tc .vmem S2048x2048 .bf16 := win1_1.stage (cfg1.slots t 1)
abbrev ms1_2 (t : Fin cfg1.N) : Memref sig .tc .vmem S1x2048 .f32 := win1_2.stage (cfg1.slots t 2)
abbrev ms1_3 (t : Fin cfg1.N) : Memref sig .tc .vmem S256x2048 .bf16 := win1_3.stage (cfg1.slots t 3)
abbrev scM1 : Memref sig .tc .vmem S256x2048 .f32 := Memref.whole cc1_scratch0

/-- The accumulator after point n: the point's block product added to zero at k = 0, to what point n - 1 left otherwise. -/
def acc1 (c : Dev nD) : (n : ℕ) → n < cfg1.N → Vec F S256x2048 .f32
  | 0, hn => k1_pay2 (xcols1 (grid1.coords ⟨0, hn⟩) (iblk1 V c 0 ⟨0, hn⟩)) (k1_pay1 (F := F)) (iblk1 V c 1 ⟨0, hn⟩)
  | n + 1, hn => k1_pay2 (xcols1 (grid1.coords ⟨n + 1, hn⟩) (iblk1 V c 0 ⟨n + 1, hn⟩))
      (if (n + 1) % 4 = 0 then (k1_pay1 (F := F)) else acc1 c n (Nat.lt_of_succ_lt hn)) (iblk1 V c 1 ⟨n + 1, hn⟩)

theorem acc1_first (c : Dev nD) (t : Fin cfg1.N) (h0 : t.val % 4 = 0) :
    acc1 V c t.val t.isLt = k1_pay2 (xcols1 (grid1.coords t) (iblk1 V c 0 t)) (k1_pay1 (F := F)) (iblk1 V c 1 t) := by
  obtain ⟨n, hn⟩ := t
  cases n with
  | zero => rfl
  | succ n => simp only [acc1]; rw [if_pos h0]

theorem acc1_next (c : Dev nD) (t : Fin cfg1.N) (h0 : t.val % 4 ≠ 0) :
    acc1 V c t.val t.isLt = k1_pay2 (xcols1 (grid1.coords t) (iblk1 V c 0 t))
      (acc1 V c (t.val - 1) (Nat.lt_of_le_of_lt (Nat.sub_le _ _) t.isLt)) (iblk1 V c 1 t) := by
  obtain ⟨n, hn⟩ := t
  cases n with
  | zero => exact absurd rfl h0
  | succ n => simp only [acc1]; rw [if_neg h0]; rfl

/-- The body's step from what the point before left is the accumulator after the point. -/
theorem accStep1 (c : Dev nD) (t : Fin cfg1.N) (d : Vec F S256x2048 .f32)
    (hd : ∀ h : t.val - 1 < cfg1.N, t.val ≠ 0 → d = acc1 V c (t.val - 1) h) :
    step1 (grid1.coords t) (iblk1 V c 0 t) d (iblk1 V c 1 t) = acc1 V c t.val t.isLt := by
  unfold step1
  by_cases h0 : t.val % 4 = 0
  · rw [if_pos ((gridFacts1 t).1.mpr h0), acc1_first V c t h0]
  · rw [if_neg (fun h => h0 ((gridFacts1 t).1.mp h)), acc1_next V c t h0, hd _ (fun h => h0 (by rw [h]))]

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Before position n: what the launch hands over, with the accumulator at what point n - 1 left when there is one. -/
def Phi1 (c : Dev nD) (n : ℕ) : sProp 𝕄 :=
  iprop(iprop((∃ d, ⌜∀ h : n - 1 < cfg1.N, n ≠ 0 → d = acc1 V c (n - 1) h⌝ ∗ owns (c : Thread nD τ) scM1 fullShare d)
      ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val
  q _ := fullShare
  owed _ := 0

/-- Each input window's buffer holds its block of the array at every point. -/
theorem before1 (c : Dev nD) (t : Fin cfg1.N) : (∀ d, (dat1 V c).before 0 t d = iblk1 V c 0 t)
    ∧ (∀ d, (dat1 V c).before 1 t d = iblk1 V c 1 t) ∧ (∀ d, (dat1 V c).before 2 t d = iblk1 V c 2 t) := by
  have hA : ∀ w, (dat1 V c).A w = V c (Pipeline.arrRef spec1 w) := fun _ => rfl
  refine ⟨fun d => ?_, fun d => ?_, fun d => ?_⟩ <;>
  exact ((dat1 V c).before_in_eq_fetched _ rfl (fun _ => rfl) (fun _ _ _ => rfl)
    (fun t => by rw [show (dat1 V c).after _ t = iblk1 V c _ t from rfl]; unfold Dat.blockOf iblk1; rw [hA]; try rfl) t d).trans
    (by unfold Dat.fetched Dat.blockOf iblk1; rw [hA]; try rfl)

end Cert.KernelIdeal.Mm

end
-- ==== Proof.K1Oblig.lean ====
import proofs.«427408_j57458072485900_3_alg».proof.Proof.K1Data

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves1 (c : Dev nD) (t : Fin cfg1.N) (d) :
    owns (c : Thread nD τ) (ms1_3 t) fullShare (if isLast1 (grid1.coords t) then k1_pay3 (acc1 V c t.val t.isLt) (iblk1 V c 2 t) else (dat1 V c).before 3 t d)
      ⊢ (dat1 V c).leavesExact 3 t := by
  obtain ⟨-, hL, -, -, -, i3, f3⟩ := gridFacts1 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t)) := by
  obtain ⟨hF, hL, l0, l1, l2, -, -⟩ := gridFacts1 t
  unfold bodyAt1
  simp only [(before1 V c t).1, (before1 V c t).2.1, (before1 V c t).2.2]
  rw [show (dat1 V c).owesAt () t.succ = (dat1 V c).owesAt () t.castSucc from rfl,
    show (dat1 V c).Φ t.succ = Phi1 V c (t.val + 1) from rfl, show (dat1 V c).Φ t.castSucc = Phi1 V c t.val from rfl,
    show (dat1 V c).leavesExact 0 t = owns (c : Thread nD τ) (ms1_0 t) fullShare (iblk1 V c 0 t) from by unfold Dat.leavesExact; rw [l0]; rfl,
    show (dat1 V c).leavesExact 1 t = owns (c : Thread nD τ) (ms1_1 t) fullShare (iblk1 V c 1 t) from by unfold Dat.leavesExact; rw [l1]; rfl,
    show (dat1 V c).leavesExact 2 t = owns (c : Thread nD τ) (ms1_2 t) fullShare (iblk1 V c 2 t) from by unfold Dat.leavesExact; rw [l2]; rfl]
  unfold Phi1
  iintro ⟨⟨⟨⟨%d, %hd, HS⟩, Hr⟩, Hg⟩, Ho, ⟨%d0, H0⟩, ⟨%d1, H1⟩, ⟨%d2, H2⟩, ⟨%d3, H3⟩⟩
  iapply (run1 c (grid1.coords t) _ _ _ _ _ _ _ _ scM1 (Memref.isWhole_whole _) (iblk1 V c 0 t) (iblk1 V c 1 t) (iblk1 V c 2 t)
    ((dat1 V c).before 3 t d3) d (fun h1 h2 => by have := hF.mp h1; have := hL.mp h2; omega) Set.univ _)
  rw [accStep1 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves1 V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, show (dat1 V c).Φ 0 = Phi1 V c 0 from rfl]; unfold Phi1
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout1 (c : Dev nD) : (dat1 V c).Φ (Fin.last cfg1.N) ⊢ Pipeline.ΦA spec1 c := by
  rw [PhiA1_eq, show (dat1 V c).Φ (Fin.last cfg1.N) = Phi1 V c cfg1.N from rfl]; unfold Phi1
  iintro ⟨⟨⟨%d, -, HS⟩, Hr⟩, Hg⟩
  isplitl [HS Hr]
  · isplitl [HS]; · iexists d; iexact HS
    iexact Hr
  iexact Hg

end Cert.KernelIdeal.Mm

end
-- ==== Proof.K2Body.lean ====
import proofs.«427408_j57458072485900_3_alg».proof.Proof.K0Body

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

abbrev isFirst2 (i : grid2.Coords) : Prop := (Scalar.cmpi .ne (Scalar.extui (Scalar.cmpi .eq (BitVec.ofNat 32 (i 2).val) 0#32)) 0#32) = 1#1
abbrev isLast2 (i : grid2.Coords) : Prop := k2_cond2 i = 1#1

def xcols2 (i : grid2.Coords) (x0 : Vec F S256x8192 .bf16) : Vec F S256x2048 .bf16 :=
  View.ld x0 (Rect.unit (s := S256x8192) (k2_off1 i) S256x2048.size (k2_off1_inb i))

def step2 (i : grid2.Coords) (x0 : Vec F S256x8192 .bf16) (xs0 : Vec F S256x2048 .f32) (x1 : Vec F S2048x2048 .bf16) : Vec F S256x2048 .f32 :=
  k2_pay2 (xcols2 i x0) (if isFirst2 i then k2_pay1 (F := F) else xs0) x1

/-- This call's body is the first call's, name for name. -/
theorem run2 (c : Dev nD) (i : grid2.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .bf16) (xs0 : Vec F S256x2048 .f32)
    (hx : isFirst2 i → ¬isLast2 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast2 i then k2_pay3 (step2 i x0 xs0 x1) x2 else xo)
                ∗ owns (c : Thread nD τ) arg7 fullShare (step2 i x0 xs0 x1)) -∗ K ⟨⟩))
          ⊢ wp frame (wpE (defs₀ (F := F)) Variants.none c none) E (cc2__matmul_relu_kernel i arg3 harg3 arg4 harg4 arg5 harg5 arg6 harg6 arg7 harg7) K :=
  run0 c i arg3 harg3 arg4 harg4 arg5 harg5 arg6 harg6 arg7 harg7 x0 x1 x2 xo xs0 hx E K

end Cert.KernelIdeal.Mm

end
-- ==== Proof.K2Data.lean ====
import proofs.«427408_j57458072485900_3_alg».proof.Proof.K2Body

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Over the sixteen points t = 4 j + k: the first branch is taken at k = 0, the second at k = 3, and window 3 is idle away from k = 3. -/
theorem gridFacts2 : ∀ t : Fin cfg2.N, (isFirst2 (grid2.coords t) ↔ t.val % 4 = 0) ∧ (isLast2 (grid2.coords t) ↔ t.val % 4 = 3)
    ∧ cfg2.idle 0 (grid2.coords t) = false ∧ cfg2.idle 1 (grid2.coords t) = false ∧ cfg2.idle 2 (grid2.coords t) = false
    ∧ cfg2.idle 3 (grid2.coords t) = !decide (t.val % 4 = 3) ∧ (cfg2.win 3).flush t = decide (t.val % 4 = 3) :=
  (by decide +kernel : ∀ t : Fin grid2.N, _)

abbrev ms2_0 (t : Fin cfg2.N) : Memref sig .tc .vmem S256x8192 .bf16 := win2_0.stage (cfg2.slots t 0)
abbrev ms2_1 (t : Fin cfg2.N) : Memref sig .tc .vmem S2048x2048 .bf16 := win2_1.stage (cfg2.slots t 1)
abbrev ms2_2 (t : Fin cfg2.N) : Memref sig .tc .vmem S1x2048 .f32 := win2_2.stage (cfg2.slots t 2)
abbrev ms2_3 (t : Fin cfg2.N) : Memref sig .tc .vmem S256x2048 .bf16 := win2_3.stage (cfg2.slots t 3)
abbrev scM2 : Memref sig .tc .vmem S256x2048 .f32 := Memref.whole cc2_scratch0

/-- The accumulator after point n: the point's block product added to zero at k = 0, to what point n - 1 left otherwise. -/
def acc2 (c : Dev nD) : (n : ℕ) → n < cfg2.N → Vec F S256x2048 .f32
  | 0, hn => k2_pay2 (xcols2 (grid2.coords ⟨0, hn⟩) (iblk2 V c 0 ⟨0, hn⟩)) (k2_pay1 (F := F)) (iblk2 V c 1 ⟨0, hn⟩)
  | n + 1, hn => k2_pay2 (xcols2 (grid2.coords ⟨n + 1, hn⟩) (iblk2 V c 0 ⟨n + 1, hn⟩))
      (if (n + 1) % 4 = 0 then (k2_pay1 (F := F)) else acc2 c n (Nat.lt_of_succ_lt hn)) (iblk2 V c 1 ⟨n + 1, hn⟩)

theorem acc2_first (c : Dev nD) (t : Fin cfg2.N) (h0 : t.val % 4 = 0) :
    acc2 V c t.val t.isLt = k2_pay2 (xcols2 (grid2.coords t) (iblk2 V c 0 t)) (k2_pay1 (F := F)) (iblk2 V c 1 t) := by
  obtain ⟨n, hn⟩ := t
  cases n with
  | zero => rfl
  | succ n => simp only [acc2]; rw [if_pos h0]

theorem acc2_next (c : Dev nD) (t : Fin cfg2.N) (h0 : t.val % 4 ≠ 0) :
    acc2 V c t.val t.isLt = k2_pay2 (xcols2 (grid2.coords t) (iblk2 V c 0 t))
      (acc2 V c (t.val - 1) (Nat.lt_of_le_of_lt (Nat.sub_le _ _) t.isLt)) (iblk2 V c 1 t) := by
  obtain ⟨n, hn⟩ := t
  cases n with
  | zero => exact absurd rfl h0
  | succ n => simp only [acc2]; rw [if_neg h0]; rfl

/-- The body's step from what the point before left is the accumulator after the point. -/
theorem accStep2 (c : Dev nD) (t : Fin cfg2.N) (d : Vec F S256x2048 .f32)
    (hd : ∀ h : t.val - 1 < cfg2.N, t.val ≠ 0 → d = acc2 V c (t.val - 1) h) :
    step2 (grid2.coords t) (iblk2 V c 0 t) d (iblk2 V c 1 t) = acc2 V c t.val t.isLt := by
  unfold step2
  by_cases h0 : t.val % 4 = 0
  · rw [if_pos ((gridFacts2 t).1.mpr h0), acc2_first V c t h0]
  · rw [if_neg (fun h => h0 ((gridFacts2 t).1.mp h)), acc2_next V c t h0, hd _ (fun h => h0 (by rw [h]))]

theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before position n: what the launch hands over, with the accumulator at what point n - 1 left when there is one. -/
def Phi2 (c : Dev nD) (n : ℕ) : sProp 𝕄 :=
  iprop(iprop((∃ d, ⌜∀ h : n - 1 < cfg2.N, n ≠ 0 → d = acc2 V c (n - 1) h⌝ ∗ owns (c : Thread nD τ) scM2 fullShare d)
      ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val
  q _ := fullShare
  owed _ := 0

/-- Each input window's buffer holds its block of the array at every point. -/
theorem before2 (c : Dev nD) (t : Fin cfg2.N) : (∀ d, (dat2 V c).before 0 t d = iblk2 V c 0 t)
    ∧ (∀ d, (dat2 V c).before 1 t d = iblk2 V c 1 t) ∧ (∀ d, (dat2 V c).before 2 t d = iblk2 V c 2 t) := by
  have hA : ∀ w, (dat2 V c).A w = V c (Pipeline.arrRef spec2 w) := fun _ => rfl
  refine ⟨fun d => ?_, fun d => ?_, fun d => ?_⟩ <;>
  exact ((dat2 V c).before_in_eq_fetched _ rfl (fun _ => rfl) (fun _ _ _ => rfl)
    (fun t => by rw [show (dat2 V c).after _ t = iblk2 V c _ t from rfl]; unfold Dat.blockOf iblk2; rw [hA]; try rfl) t d).trans
    (by unfold Dat.fetched Dat.blockOf iblk2; rw [hA]; try rfl)

end Cert.KernelIdeal.Mm

end
-- ==== Proof.K2Oblig.lean ====
import proofs.«427408_j57458072485900_3_alg».proof.Proof.K2Data

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves2 (c : Dev nD) (t : Fin cfg2.N) (d) :
    owns (c : Thread nD τ) (ms2_3 t) fullShare (if isLast2 (grid2.coords t) then k2_pay3 (acc2 V c t.val t.isLt) (iblk2 V c 2 t) else (dat2 V c).before 3 t d)
      ⊢ (dat2 V c).leavesExact 3 t := by
  obtain ⟨-, hL, -, -, -, i3, f3⟩ := gridFacts2 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  obtain ⟨hF, hL, l0, l1, l2, -, -⟩ := gridFacts2 t
  unfold bodyAt2
  simp only [(before2 V c t).1, (before2 V c t).2.1, (before2 V c t).2.2]
  rw [show (dat2 V c).owesAt () t.succ = (dat2 V c).owesAt () t.castSucc from rfl,
    show (dat2 V c).Φ t.succ = Phi2 V c (t.val + 1) from rfl, show (dat2 V c).Φ t.castSucc = Phi2 V c t.val from rfl,
    show (dat2 V c).leavesExact 0 t = owns (c : Thread nD τ) (ms2_0 t) fullShare (iblk2 V c 0 t) from by unfold Dat.leavesExact; rw [l0]; rfl,
    show (dat2 V c).leavesExact 1 t = owns (c : Thread nD τ) (ms2_1 t) fullShare (iblk2 V c 1 t) from by unfold Dat.leavesExact; rw [l1]; rfl,
    show (dat2 V c).leavesExact 2 t = owns (c : Thread nD τ) (ms2_2 t) fullShare (iblk2 V c 2 t) from by unfold Dat.leavesExact; rw [l2]; rfl]
  unfold Phi2
  iintro ⟨⟨⟨⟨%d, %hd, HS⟩, Hr⟩, Hg⟩, Ho, ⟨%d0, H0⟩, ⟨%d1, H1⟩, ⟨%d2, H2⟩, ⟨%d3, H3⟩⟩
  iapply (run2 c (grid2.coords t) _ _ _ _ _ _ _ _ scM2 (Memref.isWhole_whole _) (iblk2 V c 0 t) (iblk2 V c 1 t) (iblk2 V c 2 t)
    ((dat2 V c).before 3 t d3) d (fun h1 h2 => by have := hF.mp h1; have := hL.mp h2; omega) Set.univ _)
  rw [accStep2 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves2 V c t d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = Phi2 V c 0 from rfl]; unfold Phi2
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout2 (c : Dev nD) : (dat2 V c).Φ (Fin.last cfg2.N) ⊢ Pipeline.ΦA spec2 c := by
  rw [PhiA2_eq, show (dat2 V c).Φ (Fin.last cfg2.N) = Phi2 V c cfg2.N from rfl]; unfold Phi2
  iintro ⟨⟨⟨%d, -, HS⟩, Hr⟩, Hg⟩
  isplitl [HS Hr]
  · isplitl [HS]; · iexists d; iexact HS
    iexact Hr
  iexact Hg

end Cert.KernelIdeal.Mm

end
-- ==== Proof.K3Body.lean ====
import proofs.«427408_j57458072485900_3_alg».proof.Proof.Gen.KernelIdeal.Launch
import proofs.«427408_j57458072485900_3_alg».proof.Proof.Gen.KernelIdeal.Skeleton
import proofs.«427408_j57458072485900_3_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev isFirst3 (i : grid3.Coords) : Prop := (Scalar.cmpi .ne (Scalar.extui (Scalar.cmpi .eq (BitVec.ofNat 32 (i 2).val) 0#32)) 0#32) = 1#1
abbrev isLast3 (i : grid3.Coords) : Prop := k3_cond2 i = 1#1

theorem zeroOff3 : (![0, 0] : Fin 2 → ℕ) = fun _ => 0 := by funext a; fin_cases a <;> rfl

def xcols3 (i : grid3.Coords) (x0 : Vec F S256x8192 .bf16) : Vec F S256x2048 .bf16 :=
  View.ld x0 (Rect.unit (s := S256x8192) (k3_off1 i) S256x2048.size (k3_off1_inb i))

/-- The accumulator after a point: the block product added to zero at a first reduction step, to what it held otherwise. -/
def step3 (i : grid3.Coords) (x0 : Vec F S256x8192 .bf16) (xs0 : Vec F S256x2048 .f32) (x1 : Vec F S2048x2048 .bf16) : Vec F S256x2048 .f32 :=
  k3_pay2 (xcols3 i x0) (if isFirst3 i then k3_pay1 (F := F) else xs0) x1

set_option maxHeartbeats 3000000 in
/-- One grid point of the body, whichever of its two branches are taken. -/
theorem run3 (c : Dev nD) (i : grid3.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .f32) (xs0 : Vec F S256x2048 .f32)
    (hx : isFirst3 i → ¬isLast3 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast3 i then k3_pay3 (step3 i x0 xs0 x1) x2 else xo)
                ∗ owns (c : Thread nD τ) arg7 fullShare (step3 i x0 xs0 x1)) -∗ K ⟨⟩))
          ⊢ wp frame (wpE (defs₀ (F := F)) Variants.none c none) E (cc3__matmul_relu_kernel i arg3 harg3 arg4 harg4 arg5 harg5 arg6 harg6 arg7 harg7) K := by
  unfold step3
  by_cases hc0 : isFirst3 i <;> by_cases hc1 : isLast3 i
  · exact absurd hc1 (hx hc0)
  all_goals first | rw [if_pos hc0] | rw [if_neg hc0]
  all_goals first | rw [if_pos hc1] | rw [if_neg hc1]
  all_goals (
    simp only [cc3__matmul_relu_kernel_eq_skeleton]; unfold cc3__matmul_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      first
      | ( sl_unfold_words
          rw [View.read_writes_eq_canon _ _ _ (fun y => ⟨_, List.mem_singleton_self _, View.mem_set_unit_zero zeroOff3 inb_S256x2048_S256x2048_0_0 y⟩), View.canon_unit_zero zeroOff3]
          simp only [View.readAt_eq_ld, harg3.read_unread, harg4.read_unread, harg5.read_unread, harg7.read_unread, View.ld_unit_zero (S := S256x2048) zeroOff3, View.ld_unit_zero (S := S2048x2048) zeroOff3, View.ld_unit_zero (S := S1x2048) zeroOff3, View.readCov_unit_zero (S := S256x2048) _ zeroOff3]
          rfl )
      | exact hf3
    iexists _; isplitr
    swap; · iexact HS0
    ipureintro
    sl_unfold_words
    first
    | rw [View.read_writes_eq_canon _ _ _ (fun y => ⟨_, List.mem_singleton_self _, View.mem_set_unit_zero zeroOff3 inb_S256x2048_S256x2048_0_0 y⟩), View.canon_unit_zero zeroOff3]
    | rw [View.read_writes_eq_canon _ _ _ (fun y => ⟨_, List.mem_cons.mpr (Or.inl rfl), View.mem_set_unit_zero zeroOff3 inb_S256x2048_S256x2048_0_0 y⟩), View.canon_cons_unit_zero zeroOff3]
    simp only [View.readAt_eq_ld, harg3.read_unread, harg4.read_unread, harg7.read_unread, View.ld_unit_zero (S := S256x2048) zeroOff3, View.ld_unit_zero (S := S2048x2048) zeroOff3, View.readCov_unit_zero (S := S256x2048) _ zeroOff3]
    try rfl )

end Cert.KernelIdeal.Mm

end
-- ==== Proof.K3Data.lean ====
import proofs.«427408_j57458072485900_3_alg».proof.Proof.K3Body

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Over the sixteen points t = 4 j + k: the first branch is taken at k = 0, the second at k = 3, and window 3 is idle away from k = 3. -/
theorem gridFacts3 : ∀ t : Fin cfg3.N, (isFirst3 (grid3.coords t) ↔ t.val % 4 = 0) ∧ (isLast3 (grid3.coords t) ↔ t.val % 4 = 3)
    ∧ cfg3.idle 0 (grid3.coords t) = false ∧ cfg3.idle 1 (grid3.coords t) = false ∧ cfg3.idle 2 (grid3.coords t) = false
    ∧ cfg3.idle 3 (grid3.coords t) = !decide (t.val % 4 = 3) ∧ (cfg3.win 3).flush t = decide (t.val % 4 = 3) :=
  (by decide +kernel : ∀ t : Fin grid3.N, _)

abbrev ms3_0 (t : Fin cfg3.N) : Memref sig .tc .vmem S256x8192 .bf16 := win3_0.stage (cfg3.slots t 0)
abbrev ms3_1 (t : Fin cfg3.N) : Memref sig .tc .vmem S2048x2048 .bf16 := win3_1.stage (cfg3.slots t 1)
abbrev ms3_2 (t : Fin cfg3.N) : Memref sig .tc .vmem S1x2048 .f32 := win3_2.stage (cfg3.slots t 2)
abbrev ms3_3 (t : Fin cfg3.N) : Memref sig .tc .vmem S256x2048 .f32 := win3_3.stage (cfg3.slots t 3)
abbrev scM3 : Memref sig .tc .vmem S256x2048 .f32 := Memref.whole cc3_scratch0

/-- The accumulator after point n: the point's block product added to zero at k = 0, to what point n - 1 left otherwise. -/
def acc3 (c : Dev nD) : (n : ℕ) → n < cfg3.N → Vec F S256x2048 .f32
  | 0, hn => k3_pay2 (xcols3 (grid3.coords ⟨0, hn⟩) (iblk3 V c 0 ⟨0, hn⟩)) (k3_pay1 (F := F)) (iblk3 V c 1 ⟨0, hn⟩)
  | n + 1, hn => k3_pay2 (xcols3 (grid3.coords ⟨n + 1, hn⟩) (iblk3 V c 0 ⟨n + 1, hn⟩))
      (if (n + 1) % 4 = 0 then (k3_pay1 (F := F)) else acc3 c n (Nat.lt_of_succ_lt hn)) (iblk3 V c 1 ⟨n + 1, hn⟩)

theorem acc3_first (c : Dev nD) (t : Fin cfg3.N) (h0 : t.val % 4 = 0) :
    acc3 V c t.val t.isLt = k3_pay2 (xcols3 (grid3.coords t) (iblk3 V c 0 t)) (k3_pay1 (F := F)) (iblk3 V c 1 t) := by
  obtain ⟨n, hn⟩ := t
  cases n with
  | zero => rfl
  | succ n => simp only [acc3]; rw [if_pos h0]

theorem acc3_next (c : Dev nD) (t : Fin cfg3.N) (h0 : t.val % 4 ≠ 0) :
    acc3 V c t.val t.isLt = k3_pay2 (xcols3 (grid3.coords t) (iblk3 V c 0 t))
      (acc3 V c (t.val - 1) (Nat.lt_of_le_of_lt (Nat.sub_le _ _) t.isLt)) (iblk3 V c 1 t) := by
  obtain ⟨n, hn⟩ := t
  cases n with
  | zero => exact absurd rfl h0
  | succ n => simp only [acc3]; rw [if_neg h0]; rfl

/-- The body's step from what the point before left is the accumulator after the point. -/
theorem accStep3 (c : Dev nD) (t : Fin cfg3.N) (d : Vec F S256x2048 .f32)
    (hd : ∀ h : t.val - 1 < cfg3.N, t.val ≠ 0 → d = acc3 V c (t.val - 1) h) :
    step3 (grid3.coords t) (iblk3 V c 0 t) d (iblk3 V c 1 t) = acc3 V c t.val t.isLt := by
  unfold step3
  by_cases h0 : t.val % 4 = 0
  · rw [if_pos ((gridFacts3 t).1.mpr h0), acc3_first V c t h0]
  · rw [if_neg (fun h => h0 ((gridFacts3 t).1.mp h)), acc3_next V c t h0, hd _ (fun h => h0 (by rw [h]))]

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before position n: what the launch hands over, with the accumulator at what point n - 1 left when there is one. -/
def Phi3 (c : Dev nD) (n : ℕ) : sProp 𝕄 :=
  iprop(iprop((∃ d, ⌜∀ h : n - 1 < cfg3.N, n ≠ 0 → d = acc3 V c (n - 1) h⌝ ∗ owns (c : Thread nD τ) scM3 fullShare d)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := Phi3 V c t.val
  q _ := fullShare
  owed _ := 0

/-- Each input window's buffer holds its block of the array at every point. -/
theorem before3 (c : Dev nD) (t : Fin cfg3.N) : (∀ d, (dat3 V c).before 0 t d = iblk3 V c 0 t)
    ∧ (∀ d, (dat3 V c).before 1 t d = iblk3 V c 1 t) ∧ (∀ d, (dat3 V c).before 2 t d = iblk3 V c 2 t) := by
  have hA : ∀ w, (dat3 V c).A w = V c (Pipeline.arrRef spec3 w) := fun _ => rfl
  refine ⟨fun d => ?_, fun d => ?_, fun d => ?_⟩ <;>
  exact ((dat3 V c).before_in_eq_fetched _ rfl (fun _ => rfl) (fun _ _ _ => rfl)
    (fun t => by rw [show (dat3 V c).after _ t = iblk3 V c _ t from rfl]; unfold Dat.blockOf iblk3; rw [hA]; try rfl) t d).trans
    (by unfold Dat.fetched Dat.blockOf iblk3; rw [hA]; try rfl)

end Cert.KernelIdeal.Mm

end
-- ==== Proof.K3Oblig.lean ====
import proofs.«427408_j57458072485900_3_alg».proof.Proof.K3Data

set_option maxRecDepth 16384

noncomputable section

namespace Cert.KernelIdeal.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves3 (c : Dev nD) (t : Fin cfg3.N) (d) :
    owns (c : Thread nD τ) (ms3_3 t) fullShare (if isLast3 (grid3.coords t) then k3_pay3 (acc3 V c t.val t.isLt) (iblk3 V c 2 t) else (dat3 V c).before 3 t d)
      ⊢ (dat3 V c).leavesExact 3 t := by
  obtain ⟨-, hL, -, -, -, i3, f3⟩ := gridFacts3 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body3 (c : Dev nD) (t : Fin cfg3.N) :
    iprop((dat3 V c).Φ t.castSucc ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t)) := by
  obtain ⟨hF, hL, l0, l1, l2, -, -⟩ := gridFacts3 t
  unfold bodyAt3
  simp only [(before3 V c t).1, (before3 V c t).2.1, (before3 V c t).2.2]
  rw [show (dat3 V c).owesAt () t.succ = (dat3 V c).owesAt () t.castSucc from rfl,
    show (dat3 V c).Φ t.succ = Phi3 V c (t.val + 1) from rfl, show (dat3 V c).Φ t.castSucc = Phi3 V c t.val from rfl,
    show (dat3 V c).leavesExact 0 t = owns (c : Thread nD τ) (ms3_0 t) fullShare (iblk3 V c 0 t) from by unfold Dat.leavesExact; rw [l0]; rfl,
    show (dat3 V c).leavesExact 1 t = owns (c : Thread nD τ) (ms3_1 t) fullShare (iblk3 V c 1 t) from by unfold Dat.leavesExact; rw [l1]; rfl,
    show (dat3 V c).leavesExact 2 t = owns (c : Thread nD τ) (ms3_2 t) fullShare (iblk3 V c 2 t) from by unfold Dat.leavesExact; rw [l2]; rfl]
  unfold Phi3
  iintro ⟨⟨⟨⟨%d, %hd, HS⟩, Hr⟩, Hg⟩, Ho, ⟨%d0, H0⟩, ⟨%d1, H1⟩, ⟨%d2, H2⟩, ⟨%d3, H3⟩⟩
  iapply (run3 c (grid3.coords t) _ _ _ _ _ _ _ _ scM3 (Memref.isWhole_whole _) (iblk3 V c 0 t) (iblk3 V c 1 t) (iblk3 V c 2 t)
    ((dat3 V c).before 3 t d3) d (fun h1 h2 => by have := hF.mp h1; have := hL.mp h2; omega) Set.univ _)
  rw [accStep3 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves3 V c t d3); iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq, show (dat3 V c).Φ 0 = Phi3 V c 0 from rfl]; unfold Phi3
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout3 (c : Dev nD) : (dat3 V c).Φ (Fin.last cfg3.N) ⊢ Pipeline.ΦA spec3 c := by
  rw [PhiA3_eq, show (dat3 V c).Φ (Fin.last cfg3.N) = Phi3 V c cfg3.N from rfl]; unfold Phi3
  iintro ⟨⟨⟨%d, -, HS⟩, Hr⟩, Hg⟩
  isplitl [HS Hr]
  · isplitl [HS]; · iexists d; iexact HS
    iexact Hr
  iexact Hg

end Cert.KernelIdeal.Mm

end
-- ==== Proof.KRun.lean ====
import proofs.«427408_j57458072485900_3_alg».proof.Proof.K0Oblig
import proofs.«427408_j57458072485900_3_alg».proof.Proof.K1Oblig
import proofs.«427408_j57458072485900_3_alg».proof.Proof.K2Oblig
import proofs.«427408_j57458072485900_3_alg».proof.Proof.K3Oblig
import proofs.«427408_j57458072485900_3_alg».proof.Proof.Gen.KernelIdeal.Regions
import Idealize.ShloMosaic.Lib.Pipeline.RegionsLoop
import Idealize.ShloMosaic.Lib.Pipeline.FrameSuffix

noncomputable section

namespace Cert.KernelIdeal.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Cert.KernelIdeal.Gen

variable {F : FTy → Type} [FloatOps F]

local notation "𝕄" => MT nD τ sig Unit (Elt F) ℕ (UR sig nD τ) ℕ

-- The contents of every buffer of every core.
abbrev Vals (F : FTy → Type) := Dev nD → Valuation τ sig (Elt F)

-- Contents read at the core's own references.
abbrev onCore (W : Vals F) (c : Dev nD) (b : Ref sig .tc) : Buf (Elt F) ((c : Thread nD τ).loc b) := W c b

-- The contents after a host stretch.
abbrev afterHost (ops : List (HloOp τ sig (Elt F))) (W : Vals F) : Vals F := fun c => StableHlo.after ops (W c)

-- Product `p`'s configuration.
abbrev cfgOf (F : FTy → Type) [FloatOps F] (p : Fin 4) : Cfg sig Λ₀ := Pipeline.pin (pcfgs (F := F)) adm p

-- The contents after product `p`: its arrays at their final contents, every other buffer as entered.
abbrev afterCall {p : Fin 4} (dat : (c : Dev nD) → Dat τ (Elt F) Unit ℕ (UR sig nD τ) ℕ (cfgOf F p) c) (W : Vals F) : Vals F :=
  fun c => Pipeline.withArrays (cfgOf F p).spec c (W c) fun w => (dat c).arrAt w (cfgOf F p).N

-- A buffer the stretch does not write and that is no array of the product comes through both unchanged.
theorem kept_step (ops : List (HloOp τ sig (Elt F))) {l : List (Ref sig .tc)}
    (hl : ops.Forall fun op => op.writes ⊆ (l.map (Proc.devRef (τ := τ) .tc)).toFinset) {p : Fin 4}
    (dat : (c : Dev nD) → Dat τ (Elt F) Unit ℕ (UR sig nD τ) ℕ (cfgOf F p) c) (W : Vals F) (c : Dev nD)
    {b : Ref sig .tc} (h : b ∉ l ∧ ∀ w, Pipeline.arrRef (cfgOf F p).spec w ≠ b) : afterCall dat (afterHost ops W) c b = W c b :=
  (Pipeline.withArrays_of_ne _ c _ _ b h.2).trans (StableHlo.after_of_writes_sub ops _ hl h.1)

-- An array of the product ends at its final contents.
theorem afterCall_arr {p : Fin 4} (hinj : Function.Injective (Pipeline.arrRef (cfgOf F p).spec))
    (dat : (c : Dev nD) → Dat τ (Elt F) Unit ℕ (UR sig nD τ) ℕ (cfgOf F p) c) (W : Vals F) (c : Dev nD)
    (w : Fin (cfgOf F p).W) : afterCall dat W c (Proc.devRef .tc (Pipeline.arrRef (cfgOf F p).spec w)) = (dat c).arrAt w (cfgOf F p).N :=
  Pipeline.withArrays_arr _ hinj c _ _ w

variable (m : (ℓ : Loc nD τ sig) → Buf (Elt F) ℓ)

abbrev W0 : Vals F := fun c b => m (c, b)
abbrev W1 := afterHost hostOps0 (W0 m)
def W2 := afterCall (p := 0) (dat0 (onCore (W1 m))) (W1 m)
abbrev W3 := afterHost hostOps1 (W2 m)
def W4 := afterCall (p := 1) (dat1 (onCore (W3 m))) (W3 m)
abbrev W5 := afterHost hostOps2 (W4 m)
def W6 := afterCall (p := 2) (dat2 (onCore (W5 m))) (W5 m)
abbrev W7 := afterHost hostOps3 (W6 m)
def W8 := afterCall (p := 3) (dat3 (onCore (W7 m))) (W7 m)

-- No host stretch writes `b` and no product has it as an array.
abbrev Kept (b : Ref sig .tc) : Prop :=
  (b ∉ hostOps0_W ∧ ∀ w, Pipeline.arrRef spec0 w ≠ b) ∧ (b ∉ hostOps1_W ∧ ∀ w, Pipeline.arrRef spec1 w ≠ b)
    ∧ (b ∉ hostOps2_W ∧ ∀ w, Pipeline.arrRef spec2 w ≠ b) ∧ b ∉ hostOps3_W ∧ ∀ w, Pipeline.arrRef spec3 w ≠ b

-- Such a buffer holds, after every product, what the launch put there.
theorem kept (c : Dev nD) {b : Ref sig .tc} (h : Kept b) :
    W2 m c b = W0 m c b ∧ W4 m c b = W0 m c b ∧ W6 m c b = W0 m c b ∧ W8 m c b = W0 m c b := by
  have h2 : W2 m c b = W0 m c b := kept_step hostOps0 hostOps0_writes _ _ c h.1
  have h4 : W4 m c b = W0 m c b := (kept_step hostOps1 hostOps1_writes _ _ c h.2.1).trans h2
  have h6 : W6 m c b = W0 m c b := (kept_step hostOps2 hostOps2_writes _ _ c h.2.2.1).trans h4
  exact ⟨h2, h4, h6, (kept_step hostOps3 hostOps3_writes _ _ c h.2.2.2).trans h6⟩

def pdats : (p : Fin 4) → (c : Dev nD) → Dat τ (Elt F) Unit ℕ (UR sig nD τ) ℕ (cfgOf F p) c
  | ⟨0, _⟩ => dat0 (onCore (W1 m))
  | ⟨1, _⟩ => dat1 (onCore (W3 m))
  | ⟨2, _⟩ => dat2 (onCore (W5 m))
  | ⟨3, _⟩ => dat3 (onCore (W7 m))
-- Every product's data hold full shares, owe nothing and bound the recorded pairs by nothing.
theorem pdats_nil (p : Fin 4) (c : Dev nD) : (∀ w, (pdats m p c).q w = fullShare) ∧ (∀ t, (pdats m p c).owed t = 0)
    ∧ ∀ t, (pdats m p c).recorded t = Set.univ := by
  match p with
  | ⟨0, _⟩ | ⟨1, _⟩ | ⟨2, _⟩ | ⟨3, _⟩ => exact ⟨fun _ => rfl, fun _ => rfl, fun _ => rfl⟩
abbrev 𝒱₀ : Variants := Variants.none
abbrev L : GSem nD τ sig → Finset Unit := fun _ => ∅
abbrev lv : GSem nD τ sig → Unit → ℕ := fun _ _ => 0
-- Beside its buffers a core holds, between items, its generator register at some state, and owes nothing.
abbrev R (c : Dev nD) : sProp 𝕄 := iprop((∃ r, prngReg c r) ∗ ∃ W, owes (c : Thread nD τ) (0 : CellTallies nD τ sig Unit) W)
-- Between items every unscoped buffer is held whole at named contents.
abbrev heldAt (W : Vals F) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

set_option backward.isDefEq.respectTransparency.types false in
-- Product `p` as a segment from the contents `W` to `afterCall (pdats m p) W`.
def reg (p : Fin 4) (lf : Pipeline.LaunchFacts (nD := nD) (τ := τ) cfgs p) (W : Vals F)
    (hb : ∀ c, BodyObligation (pdats m p c) defs₀ 𝒱₀ () Set.univ)
    (hi : ∀ c, Pipeline.ΦA (cfgOf F p).spec c ⊢ (pdats m p c).Φ 0)
    (ho : ∀ c, (pdats m p c).Φ (Fin.last (cfgOf F p).N) ⊢ Pipeline.ΦA (cfgOf F p).spec c)
    (hA : ∀ c w, (pdats m p c).A w = onCore W c (Pipeline.arrRef (cfgOf F p).spec w)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_nil m p c).2.1
  pre := heldAt W
  post := heldAt (afterCall (pdats m p) W)
  X c := iprop(∃ r, prngReg c r)
  Y c := iprop(∃ r, prngReg c r)
  Z c := Pipeline.unscopedRest (cfgOf F p).spec c (onCore W c)
  hentry c := by
    rw [Pipeline.ownSems0_none]
    have hsplit := Pipeline.arrays_of_unscopedBufs (p := p) _ _ (pdats m) lf.win lf.arr_whole c
      ((pdats m p c).share_full (pdats_nil m p c).1) (onCore W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [(pdats_nil m p c).2.1, (pdats_nil m p c).2.2]
      icases HO with ⟨%T, HO⟩; iexists T; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (ho c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) _ _ lf.win lf.arr_whole c (pdats m)
      ((pdats m p c).share_full (pdats_nil m p c).1) (onCore W c) (onCore (afterCall (pdats m p) W) c) ((pdats m p c).arrAt · (cfgOf F p).N) (fun w => (afterCall_arr lf.win.arr_inj (pdats m p) W c w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(pdats_nil m p c).2.1]
    icases HO with ⟨%T, -, HO⟩; iexists T; iexact HO

def reg0 := reg m 0 launch0 (W1 m) (body_obligation0 _) (hin0 _) (hout0 _) fun _ _ => rfl
def reg1 := reg m 1 launch1 (W3 m) (body_obligation1 _) (hin1 _) (hout1 _) fun _ _ => rfl
def reg2 := reg m 2 launch2 (W5 m) (body_obligation2 _) (hin2 _) (hout2 _) fun _ _ => rfl
def reg3 := reg m 3 launch3 (W7 m) (body_obligation3 _) (hin3 _) (hout3 _) fun _ _ => rfl

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
-- Every fair execution terminates with each unscoped buffer at the last contents, a `Kept` one as launched.
theorem run_main (ρ : Dev nD → PrngReg) : θ_run defs (onTc (τ := τ) (main (F := F))) ⟨m, fun _ => 0, ρ⟩ (fun r => ∀ (c : Dev nD) (b : Ref sig .tc),
      ¬ (Proc.devRef .tc b : DevRef τ sig).isScoped → r.2.mem ((c : Thread nD τ).loc b) = W8 m c b
        ∧ (Kept b → r.2.mem ((c : Thread nD τ).loc b) = m ((c : Thread nD τ).loc b))) :=
  Pipeline.θ_run_regions_kit (pcfgs (F := F)) adm (pdats m) () cellOf_inj emb₁ defs₀ 𝒱₀ L lv m ρ main (segs m)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := heldAt (W0 m))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun _ => sep_assoc.2⟩)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb =>
      have e := h c _ (Finset.mem_filter.mpr ⟨StableHlo.devRef_mem_tcRefs b, hb⟩)
      ⟨e, fun hk => e.trans (kept m c hk).2.2.2⟩)

end Cert.KernelIdeal.Mm

end
-- ==== Proof.KB0Body.lean ====
import proofs.«427408_j57458072485900_3_alg».proof.Proof.Gen.Kernel.Launch
import proofs.«427408_j57458072485900_3_alg».proof.Proof.Gen.Kernel.Skeleton
import proofs.«427408_j57458072485900_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev isFirst0 (i : grid0.Coords) : Prop := (Scalar.cmpi .ne (Scalar.extui (Scalar.cmpi .eq (BitVec.ofNat 32 (i 2).val) 0#32)) 0#32) = 1#1
abbrev isLast0 (i : grid0.Coords) : Prop := k0_cond2 i = 1#1

theorem zeroOff0 : (![0, 0] : Fin 2 → ℕ) = fun _ => 0 := by funext a; fin_cases a <;> rfl

def xcols0 (i : grid0.Coords) (x0 : Vec F S256x8192 .bf16) : Vec F S256x2048 .bf16 :=
  View.ld x0 (Rect.unit (s := S256x8192) (k0_off1 i) S256x2048.size (k0_off1_inb i))

/-- The accumulator after a point: the block product added to zero at a first reduction step, to what it held otherwise. -/
def step0 (i : grid0.Coords) (x0 : Vec F S256x8192 .bf16) (xs0 : Vec F S256x2048 .f32) (x1 : Vec F S2048x2048 .bf16) : Vec F S256x2048 .f32 :=
  k0_pay2 (xcols0 i x0) (if isFirst0 i then k0_pay1 (F := F) else xs0) x1

set_option maxHeartbeats 3000000 in
/-- One grid point of the body, whichever of its two branches are taken. -/
theorem run0 (c : Dev nD) (i : grid0.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .bf16) (xs0 : Vec F S256x2048 .f32)
    (hx : isFirst0 i → ¬isLast0 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast0 i then k0_pay3 (step0 i x0 xs0 x1) x2 else xo)
                ∗ owns (c : Thread nD τ) arg7 fullShare (step0 i x0 xs0 x1)) -∗ K ⟨⟩))
          ⊢ wp frame (wpE (defs₀ (F := F)) Variants.none c none) E (cc0__matmul_relu_kernel i arg3 harg3 arg4 harg4 arg5 harg5 arg6 harg6 arg7 harg7) K := by
  unfold step0
  by_cases hc0 : isFirst0 i <;> by_cases hc1 : isLast0 i
  · exact absurd hc1 (hx hc0)
  all_goals first | rw [if_pos hc0] | rw [if_neg hc0]
  all_goals first | rw [if_pos hc1] | rw [if_neg hc1]
  all_goals (
    simp only [cc0__matmul_relu_kernel_eq_skeleton]; unfold cc0__matmul_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      first
      | ( sl_unfold_words
          rw [View.read_writes_eq_canon _ _ _ (fun y => ⟨_, List.mem_singleton_self _, View.mem_set_unit_zero zeroOff0 inb_S256x2048_S256x2048_0_0 y⟩), View.canon_unit_zero zeroOff0]
          simp only [View.readAt_eq_ld, harg3.read_unread, harg4.read_unread, harg5.read_unread, harg7.read_unread, View.ld_unit_zero (S := S256x2048) zeroOff0, View.ld_unit_zero (S := S2048x2048) zeroOff0, View.ld_unit_zero (S := S1x2048) zeroOff0, View.readCov_unit_zero (S := S256x2048) _ zeroOff0]
          rfl )
      | exact hf3
    iexists _; isplitr
    swap; · iexact HS0
    ipureintro
    sl_unfold_words
    first
    | rw [View.read_writes_eq_canon _ _ _ (fun y => ⟨_, List.mem_singleton_self _, View.mem_set_unit_zero zeroOff0 inb_S256x2048_S256x2048_0_0 y⟩), View.canon_unit_zero zeroOff0]
    | rw [View.read_writes_eq_canon _ _ _ (fun y => ⟨_, List.mem_cons.mpr (Or.inl rfl), View.mem_set_unit_zero zeroOff0 inb_S256x2048_S256x2048_0_0 y⟩), View.canon_cons_unit_zero zeroOff0]
    simp only [View.readAt_eq_ld, harg3.read_unread, harg4.read_unread, harg7.read_unread, View.ld_unit_zero (S := S256x2048) zeroOff0, View.ld_unit_zero (S := S2048x2048) zeroOff0, View.readCov_unit_zero (S := S256x2048) _ zeroOff0]
    try rfl )

end Cert.Kernel.Mm

end
-- ==== Proof.KB0Data.lean ====
import proofs.«427408_j57458072485900_3_alg».proof.Proof.KB0Body

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Over the sixteen points t = 4 j + k: the first branch is taken at k = 0, the second at k = 3, and window 3 is idle away from k = 3. -/
theorem gridFacts0 : ∀ t : Fin cfg0.N, (isFirst0 (grid0.coords t) ↔ t.val % 4 = 0) ∧ (isLast0 (grid0.coords t) ↔ t.val % 4 = 3)
    ∧ cfg0.idle 0 (grid0.coords t) = false ∧ cfg0.idle 1 (grid0.coords t) = false ∧ cfg0.idle 2 (grid0.coords t) = false
    ∧ cfg0.idle 3 (grid0.coords t) = !decide (t.val % 4 = 3) ∧ (cfg0.win 3).flush t = decide (t.val % 4 = 3) :=
  (by decide +kernel : ∀ t : Fin grid0.N, _)

abbrev ms0_0 (t : Fin cfg0.N) : Memref sig .tc .vmem S256x8192 .bf16 := win0_0.stage (cfg0.slots t 0)
abbrev ms0_1 (t : Fin cfg0.N) : Memref sig .tc .vmem S2048x2048 .bf16 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S256x2048 .bf16 := win0_3.stage (cfg0.slots t 3)
abbrev scM0 : Memref sig .tc .vmem S256x2048 .f32 := Memref.whole cc0_scratch0

/-- The accumulator after point n: the point's block product added to zero at k = 0, to what point n - 1 left otherwise. -/
def acc0 (c : Dev nD) : (n : ℕ) → n < cfg0.N → Vec F S256x2048 .f32
  | 0, hn => k0_pay2 (xcols0 (grid0.coords ⟨0, hn⟩) (iblk0 V c 0 ⟨0, hn⟩)) (k0_pay1 (F := F)) (iblk0 V c 1 ⟨0, hn⟩)
  | n + 1, hn => k0_pay2 (xcols0 (grid0.coords ⟨n + 1, hn⟩) (iblk0 V c 0 ⟨n + 1, hn⟩))
      (if (n + 1) % 4 = 0 then (k0_pay1 (F := F)) else acc0 c n (Nat.lt_of_succ_lt hn)) (iblk0 V c 1 ⟨n + 1, hn⟩)

theorem acc0_first (c : Dev nD) (t : Fin cfg0.N) (h0 : t.val % 4 = 0) :
    acc0 V c t.val t.isLt = k0_pay2 (xcols0 (grid0.coords t) (iblk0 V c 0 t)) (k0_pay1 (F := F)) (iblk0 V c 1 t) := by
  obtain ⟨n, hn⟩ := t
  cases n with
  | zero => rfl
  | succ n => simp only [acc0]; rw [if_pos h0]

theorem acc0_next (c : Dev nD) (t : Fin cfg0.N) (h0 : t.val % 4 ≠ 0) :
    acc0 V c t.val t.isLt = k0_pay2 (xcols0 (grid0.coords t) (iblk0 V c 0 t))
      (acc0 V c (t.val - 1) (Nat.lt_of_le_of_lt (Nat.sub_le _ _) t.isLt)) (iblk0 V c 1 t) := by
  obtain ⟨n, hn⟩ := t
  cases n with
  | zero => exact absurd rfl h0
  | succ n => simp only [acc0]; rw [if_neg h0]; rfl

/-- The body's step from what the point before left is the accumulator after the point. -/
theorem accStep0 (c : Dev nD) (t : Fin cfg0.N) (d : Vec F S256x2048 .f32)
    (hd : ∀ h : t.val - 1 < cfg0.N, t.val ≠ 0 → d = acc0 V c (t.val - 1) h) :
    step0 (grid0.coords t) (iblk0 V c 0 t) d (iblk0 V c 1 t) = acc0 V c t.val t.isLt := by
  unfold step0
  by_cases h0 : t.val % 4 = 0
  · rw [if_pos ((gridFacts0 t).1.mpr h0), acc0_first V c t h0]
  · rw [if_neg (fun h => h0 ((gridFacts0 t).1.mp h)), acc0_next V c t h0, hd _ (fun h => h0 (by rw [h]))]

theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- Before position n: what the launch hands over, with the accumulator at what point n - 1 left when there is one. -/
def Phi0 (c : Dev nD) (n : ℕ) : sProp 𝕄 :=
  iprop(iprop((∃ d, ⌜∀ h : n - 1 < cfg0.N, n ≠ 0 → d = acc0 V c (n - 1) h⌝ ∗ owns (c : Thread nD τ) scM0 fullShare d)
      ∗ Pipeline.scopedRestBut (Ix := Unit) (Name := ℕ) (U := UR sig nD τ) (Lvl := ℕ) (Val := Elt F) spec0 c [cc0_scratch0]) ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := Phi0 V c t.val
  q _ := fullShare
  owed _ := 0

/-- Each input window's buffer holds its block of the array at every point. -/
theorem before0 (c : Dev nD) (t : Fin cfg0.N) : (∀ d, (dat0 V c).before 0 t d = iblk0 V c 0 t)
    ∧ (∀ d, (dat0 V c).before 1 t d = iblk0 V c 1 t) ∧ (∀ d, (dat0 V c).before 2 t d = iblk0 V c 2 t) := by
  have hA : ∀ w, (dat0 V c).A w = V c (Pipeline.arrRef spec0 w) := fun _ => rfl
  refine ⟨fun d => ?_, fun d => ?_, fun d => ?_⟩ <;>
  exact ((dat0 V c).before_in_eq_fetched _ rfl (fun _ => rfl) (fun _ _ _ => rfl)
    (fun t => by rw [show (dat0 V c).after _ t = iblk0 V c _ t from rfl]; unfold Dat.blockOf iblk0; rw [hA]; try rfl) t d).trans
    (by unfold Dat.fetched Dat.blockOf iblk0; rw [hA]; try rfl)

end Cert.Kernel.Mm

end
-- ==== Proof.KB0Oblig.lean ====
import proofs.«427408_j57458072485900_3_alg».proof.Proof.KB0Data

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves0 (c : Dev nD) (t : Fin cfg0.N) (d) :
    owns (c : Thread nD τ) (ms0_3 t) fullShare (if isLast0 (grid0.coords t) then k0_pay3 (acc0 V c t.val t.isLt) (iblk0 V c 2 t) else (dat0 V c).before 3 t d)
      ⊢ (dat0 V c).leavesExact 3 t := by
  obtain ⟨-, hL, -, -, -, i3, f3⟩ := gridFacts0 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body0 (c : Dev nD) (t : Fin cfg0.N) :
    iprop((dat0 V c).Φ t.castSucc ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  obtain ⟨hF, hL, l0, l1, l2, -, -⟩ := gridFacts0 t
  unfold bodyAt0
  simp only [(before0 V c t).1, (before0 V c t).2.1, (before0 V c t).2.2]
  rw [show (dat0 V c).owesAt () t.succ = (dat0 V c).owesAt () t.castSucc from rfl,
    show (dat0 V c).Φ t.succ = Phi0 V c (t.val + 1) from rfl, show (dat0 V c).Φ t.castSucc = Phi0 V c t.val from rfl,
    show (dat0 V c).leavesExact 0 t = owns (c : Thread nD τ) (ms0_0 t) fullShare (iblk0 V c 0 t) from by unfold Dat.leavesExact; rw [l0]; rfl,
    show (dat0 V c).leavesExact 1 t = owns (c : Thread nD τ) (ms0_1 t) fullShare (iblk0 V c 1 t) from by unfold Dat.leavesExact; rw [l1]; rfl,
    show (dat0 V c).leavesExact 2 t = owns (c : Thread nD τ) (ms0_2 t) fullShare (iblk0 V c 2 t) from by unfold Dat.leavesExact; rw [l2]; rfl]
  unfold Phi0
  iintro ⟨⟨⟨⟨%d, %hd, HS⟩, Hr⟩, Hg⟩, Ho, ⟨%d0, H0⟩, ⟨%d1, H1⟩, ⟨%d2, H2⟩, ⟨%d3, H3⟩⟩
  iapply (run0 c (grid0.coords t) _ _ _ _ _ _ _ _ scM0 (Memref.isWhole_whole _) (iblk0 V c 0 t) (iblk0 V c 1 t) (iblk0 V c 2 t)
    ((dat0 V c).before 3 t d3) d (fun h1 h2 => by have := hF.mp h1; have := hL.mp h2; omega) Set.univ _)
  rw [accStep0 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves0 V c t d3); iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [PhiA0_eq, show (dat0 V c).Φ 0 = Phi0 V c 0 from rfl]; unfold Phi0
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout0 (c : Dev nD) : (dat0 V c).Φ (Fin.last cfg0.N) ⊢ Pipeline.ΦA spec0 c := by
  rw [PhiA0_eq, show (dat0 V c).Φ (Fin.last cfg0.N) = Phi0 V c cfg0.N from rfl]; unfold Phi0
  iintro ⟨⟨⟨%d, -, HS⟩, Hr⟩, Hg⟩
  isplitl [HS Hr]
  · isplitl [HS]; · iexists d; iexact HS
    iexact Hr
  iexact Hg

end Cert.Kernel.Mm

end
-- ==== Proof.KB1Body.lean ====
import proofs.«427408_j57458072485900_3_alg».proof.Proof.KB0Body

noncomputable section

namespace Cert.Kernel.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

abbrev isFirst1 (i : grid1.Coords) : Prop := (Scalar.cmpi .ne (Scalar.extui (Scalar.cmpi .eq (BitVec.ofNat 32 (i 2).val) 0#32)) 0#32) = 1#1
abbrev isLast1 (i : grid1.Coords) : Prop := k1_cond2 i = 1#1

def xcols1 (i : grid1.Coords) (x0 : Vec F S256x8192 .bf16) : Vec F S256x2048 .bf16 :=
  View.ld x0 (Rect.unit (s := S256x8192) (k1_off1 i) S256x2048.size (k1_off1_inb i))

def step1 (i : grid1.Coords) (x0 : Vec F S256x8192 .bf16) (xs0 : Vec F S256x2048 .f32) (x1 : Vec F S2048x2048 .bf16) : Vec F S256x2048 .f32 :=
  k1_pay2 (xcols1 i x0) (if isFirst1 i then k1_pay1 (F := F) else xs0) x1

/-- This call's body is the first call's, name for name. -/
theorem run1 (c : Dev nD) (i : grid1.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .bf16) (xs0 : Vec F S256x2048 .f32)
    (hx : isFirst1 i → ¬isLast1 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast1 i then k1_pay3 (step1 i x0 xs0 x1) x2 else xo)
                ∗ owns (c : Thread nD τ) arg7 fullShare (step1 i x0 xs0 x1)) -∗ K ⟨⟩))
          ⊢ wp frame (wpE (defs₀ (F := F)) Variants.none c none) E (cc1__matmul_relu_kernel i arg3 harg3 arg4 harg4 arg5 harg5 arg6 harg6 arg7 harg7) K :=
  run0 c i arg3 harg3 arg4 harg4 arg5 harg5 arg6 harg6 arg7 harg7 x0 x1 x2 xo xs0 hx E K

end Cert.Kernel.Mm

end
-- ==== Proof.KB1Data.lean ====
import proofs.«427408_j57458072485900_3_alg».proof.Proof.KB1Body

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Over the sixteen points t = 4 j + k: the first branch is taken at k = 0, the second at k = 3, and window 3 is idle away from k = 3. -/
theorem gridFacts1 : ∀ t : Fin cfg1.N, (isFirst1 (grid1.coords t) ↔ t.val % 4 = 0) ∧ (isLast1 (grid1.coords t) ↔ t.val % 4 = 3)
    ∧ cfg1.idle 0 (grid1.coords t) = false ∧ cfg1.idle 1 (grid1.coords t) = false ∧ cfg1.idle 2 (grid1.coords t) = false
    ∧ cfg1.idle 3 (grid1.coords t) = !decide (t.val % 4 = 3) ∧ (cfg1.win 3).flush t = decide (t.val % 4 = 3) :=
  (by decide +kernel : ∀ t : Fin grid1.N, _)

abbrev ms1_0 (t : Fin cfg1.N) : Memref sig .tc .vmem S256x8192 .bf16 := win1_0.stage (cfg1.slots t 0)
abbrev ms1_1 (t : Fin cfg1.N) : Memref sig .tc .vmem S2048x2048 .bf16 := win1_1.stage (cfg1.slots t 1)
abbrev ms1_2 (t : Fin cfg1.N) : Memref sig .tc .vmem S1x2048 .f32 := win1_2.stage (cfg1.slots t 2)
abbrev ms1_3 (t : Fin cfg1.N) : Memref sig .tc .vmem S256x2048 .bf16 := win1_3.stage (cfg1.slots t 3)
abbrev scM1 : Memref sig .tc .vmem S256x2048 .f32 := Memref.whole cc1_scratch0

/-- The accumulator after point n: the point's block product added to zero at k = 0, to what point n - 1 left otherwise. -/
def acc1 (c : Dev nD) : (n : ℕ) → n < cfg1.N → Vec F S256x2048 .f32
  | 0, hn => k1_pay2 (xcols1 (grid1.coords ⟨0, hn⟩) (iblk1 V c 0 ⟨0, hn⟩)) (k1_pay1 (F := F)) (iblk1 V c 1 ⟨0, hn⟩)
  | n + 1, hn => k1_pay2 (xcols1 (grid1.coords ⟨n + 1, hn⟩) (iblk1 V c 0 ⟨n + 1, hn⟩))
      (if (n + 1) % 4 = 0 then (k1_pay1 (F := F)) else acc1 c n (Nat.lt_of_succ_lt hn)) (iblk1 V c 1 ⟨n + 1, hn⟩)

theorem acc1_first (c : Dev nD) (t : Fin cfg1.N) (h0 : t.val % 4 = 0) :
    acc1 V c t.val t.isLt = k1_pay2 (xcols1 (grid1.coords t) (iblk1 V c 0 t)) (k1_pay1 (F := F)) (iblk1 V c 1 t) := by
  obtain ⟨n, hn⟩ := t
  cases n with
  | zero => rfl
  | succ n => simp only [acc1]; rw [if_pos h0]

theorem acc1_next (c : Dev nD) (t : Fin cfg1.N) (h0 : t.val % 4 ≠ 0) :
    acc1 V c t.val t.isLt = k1_pay2 (xcols1 (grid1.coords t) (iblk1 V c 0 t))
      (acc1 V c (t.val - 1) (Nat.lt_of_le_of_lt (Nat.sub_le _ _) t.isLt)) (iblk1 V c 1 t) := by
  obtain ⟨n, hn⟩ := t
  cases n with
  | zero => exact absurd rfl h0
  | succ n => simp only [acc1]; rw [if_neg h0]; rfl

/-- The body's step from what the point before left is the accumulator after the point. -/
theorem accStep1 (c : Dev nD) (t : Fin cfg1.N) (d : Vec F S256x2048 .f32)
    (hd : ∀ h : t.val - 1 < cfg1.N, t.val ≠ 0 → d = acc1 V c (t.val - 1) h) :
    step1 (grid1.coords t) (iblk1 V c 0 t) d (iblk1 V c 1 t) = acc1 V c t.val t.isLt := by
  unfold step1
  by_cases h0 : t.val % 4 = 0
  · rw [if_pos ((gridFacts1 t).1.mpr h0), acc1_first V c t h0]
  · rw [if_neg (fun h => h0 ((gridFacts1 t).1.mp h)), acc1_next V c t h0, hd _ (fun h => h0 (by rw [h]))]

theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- Before position n: what the launch hands over, with the accumulator at what point n - 1 left when there is one. -/
def Phi1 (c : Dev nD) (n : ℕ) : sProp 𝕄 :=
  iprop(iprop((∃ d, ⌜∀ h : n - 1 < cfg1.N, n ≠ 0 → d = acc1 V c (n - 1) h⌝ ∗ owns (c : Thread nD τ) scM1 fullShare d)
      ∗ Pipeline.scopedRestBut (Ix := Unit) (Name := ℕ) (U := UR sig nD τ) (Lvl := ℕ) (Val := Elt F) spec1 c [cc1_scratch0]) ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := Phi1 V c t.val
  q _ := fullShare
  owed _ := 0

/-- Each input window's buffer holds its block of the array at every point. -/
theorem before1 (c : Dev nD) (t : Fin cfg1.N) : (∀ d, (dat1 V c).before 0 t d = iblk1 V c 0 t)
    ∧ (∀ d, (dat1 V c).before 1 t d = iblk1 V c 1 t) ∧ (∀ d, (dat1 V c).before 2 t d = iblk1 V c 2 t) := by
  have hA : ∀ w, (dat1 V c).A w = V c (Pipeline.arrRef spec1 w) := fun _ => rfl
  refine ⟨fun d => ?_, fun d => ?_, fun d => ?_⟩ <;>
  exact ((dat1 V c).before_in_eq_fetched _ rfl (fun _ => rfl) (fun _ _ _ => rfl)
    (fun t => by rw [show (dat1 V c).after _ t = iblk1 V c _ t from rfl]; unfold Dat.blockOf iblk1; rw [hA]; try rfl) t d).trans
    (by unfold Dat.fetched Dat.blockOf iblk1; rw [hA]; try rfl)

end Cert.Kernel.Mm

end
-- ==== Proof.KB1Oblig.lean ====
import proofs.«427408_j57458072485900_3_alg».proof.Proof.KB1Data

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves1 (c : Dev nD) (t : Fin cfg1.N) (d) :
    owns (c : Thread nD τ) (ms1_3 t) fullShare (if isLast1 (grid1.coords t) then k1_pay3 (acc1 V c t.val t.isLt) (iblk1 V c 2 t) else (dat1 V c).before 3 t d)
      ⊢ (dat1 V c).leavesExact 3 t := by
  obtain ⟨-, hL, -, -, -, i3, f3⟩ := gridFacts1 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body1 (c : Dev nD) (t : Fin cfg1.N) :
    iprop((dat1 V c).Φ t.castSucc ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t)) := by
  obtain ⟨hF, hL, l0, l1, l2, -, -⟩ := gridFacts1 t
  unfold bodyAt1
  simp only [(before1 V c t).1, (before1 V c t).2.1, (before1 V c t).2.2]
  rw [show (dat1 V c).owesAt () t.succ = (dat1 V c).owesAt () t.castSucc from rfl,
    show (dat1 V c).Φ t.succ = Phi1 V c (t.val + 1) from rfl, show (dat1 V c).Φ t.castSucc = Phi1 V c t.val from rfl,
    show (dat1 V c).leavesExact 0 t = owns (c : Thread nD τ) (ms1_0 t) fullShare (iblk1 V c 0 t) from by unfold Dat.leavesExact; rw [l0]; rfl,
    show (dat1 V c).leavesExact 1 t = owns (c : Thread nD τ) (ms1_1 t) fullShare (iblk1 V c 1 t) from by unfold Dat.leavesExact; rw [l1]; rfl,
    show (dat1 V c).leavesExact 2 t = owns (c : Thread nD τ) (ms1_2 t) fullShare (iblk1 V c 2 t) from by unfold Dat.leavesExact; rw [l2]; rfl]
  unfold Phi1
  iintro ⟨⟨⟨⟨%d, %hd, HS⟩, Hr⟩, Hg⟩, Ho, ⟨%d0, H0⟩, ⟨%d1, H1⟩, ⟨%d2, H2⟩, ⟨%d3, H3⟩⟩
  iapply (run1 c (grid1.coords t) _ _ _ _ _ _ _ _ scM1 (Memref.isWhole_whole _) (iblk1 V c 0 t) (iblk1 V c 1 t) (iblk1 V c 2 t)
    ((dat1 V c).before 3 t d3) d (fun h1 h2 => by have := hF.mp h1; have := hL.mp h2; omega) Set.univ _)
  rw [accStep1 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves1 V c t d3); iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [PhiA1_eq, show (dat1 V c).Φ 0 = Phi1 V c 0 from rfl]; unfold Phi1
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout1 (c : Dev nD) : (dat1 V c).Φ (Fin.last cfg1.N) ⊢ Pipeline.ΦA spec1 c := by
  rw [PhiA1_eq, show (dat1 V c).Φ (Fin.last cfg1.N) = Phi1 V c cfg1.N from rfl]; unfold Phi1
  iintro ⟨⟨⟨%d, -, HS⟩, Hr⟩, Hg⟩
  isplitl [HS Hr]
  · isplitl [HS]; · iexists d; iexact HS
    iexact Hr
  iexact Hg

end Cert.Kernel.Mm

end
-- ==== Proof.KB2Body.lean ====
import proofs.«427408_j57458072485900_3_alg».proof.Proof.KB0Body

noncomputable section

namespace Cert.Kernel.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

abbrev isFirst2 (i : grid2.Coords) : Prop := (Scalar.cmpi .ne (Scalar.extui (Scalar.cmpi .eq (BitVec.ofNat 32 (i 2).val) 0#32)) 0#32) = 1#1
abbrev isLast2 (i : grid2.Coords) : Prop := k2_cond2 i = 1#1

def xcols2 (i : grid2.Coords) (x0 : Vec F S256x8192 .bf16) : Vec F S256x2048 .bf16 :=
  View.ld x0 (Rect.unit (s := S256x8192) (k2_off1 i) S256x2048.size (k2_off1_inb i))

def step2 (i : grid2.Coords) (x0 : Vec F S256x8192 .bf16) (xs0 : Vec F S256x2048 .f32) (x1 : Vec F S2048x2048 .bf16) : Vec F S256x2048 .f32 :=
  k2_pay2 (xcols2 i x0) (if isFirst2 i then k2_pay1 (F := F) else xs0) x1

/-- This call's body is the first call's, name for name. -/
theorem run2 (c : Dev nD) (i : grid2.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .bf16) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .bf16) (xs0 : Vec F S256x2048 .f32)
    (hx : isFirst2 i → ¬isLast2 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast2 i then k2_pay3 (step2 i x0 xs0 x1) x2 else xo)
                ∗ owns (c : Thread nD τ) arg7 fullShare (step2 i x0 xs0 x1)) -∗ K ⟨⟩))
          ⊢ wp frame (wpE (defs₀ (F := F)) Variants.none c none) E (cc2__matmul_relu_kernel i arg3 harg3 arg4 harg4 arg5 harg5 arg6 harg6 arg7 harg7) K :=
  run0 c i arg3 harg3 arg4 harg4 arg5 harg5 arg6 harg6 arg7 harg7 x0 x1 x2 xo xs0 hx E K

end Cert.Kernel.Mm

end
-- ==== Proof.KB2Data.lean ====
import proofs.«427408_j57458072485900_3_alg».proof.Proof.KB2Body

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Over the sixteen points t = 4 j + k: the first branch is taken at k = 0, the second at k = 3, and window 3 is idle away from k = 3. -/
theorem gridFacts2 : ∀ t : Fin cfg2.N, (isFirst2 (grid2.coords t) ↔ t.val % 4 = 0) ∧ (isLast2 (grid2.coords t) ↔ t.val % 4 = 3)
    ∧ cfg2.idle 0 (grid2.coords t) = false ∧ cfg2.idle 1 (grid2.coords t) = false ∧ cfg2.idle 2 (grid2.coords t) = false
    ∧ cfg2.idle 3 (grid2.coords t) = !decide (t.val % 4 = 3) ∧ (cfg2.win 3).flush t = decide (t.val % 4 = 3) :=
  (by decide +kernel : ∀ t : Fin grid2.N, _)

abbrev ms2_0 (t : Fin cfg2.N) : Memref sig .tc .vmem S256x8192 .bf16 := win2_0.stage (cfg2.slots t 0)
abbrev ms2_1 (t : Fin cfg2.N) : Memref sig .tc .vmem S2048x2048 .bf16 := win2_1.stage (cfg2.slots t 1)
abbrev ms2_2 (t : Fin cfg2.N) : Memref sig .tc .vmem S1x2048 .f32 := win2_2.stage (cfg2.slots t 2)
abbrev ms2_3 (t : Fin cfg2.N) : Memref sig .tc .vmem S256x2048 .bf16 := win2_3.stage (cfg2.slots t 3)
abbrev scM2 : Memref sig .tc .vmem S256x2048 .f32 := Memref.whole cc2_scratch0

/-- The accumulator after point n: the point's block product added to zero at k = 0, to what point n - 1 left otherwise. -/
def acc2 (c : Dev nD) : (n : ℕ) → n < cfg2.N → Vec F S256x2048 .f32
  | 0, hn => k2_pay2 (xcols2 (grid2.coords ⟨0, hn⟩) (iblk2 V c 0 ⟨0, hn⟩)) (k2_pay1 (F := F)) (iblk2 V c 1 ⟨0, hn⟩)
  | n + 1, hn => k2_pay2 (xcols2 (grid2.coords ⟨n + 1, hn⟩) (iblk2 V c 0 ⟨n + 1, hn⟩))
      (if (n + 1) % 4 = 0 then (k2_pay1 (F := F)) else acc2 c n (Nat.lt_of_succ_lt hn)) (iblk2 V c 1 ⟨n + 1, hn⟩)

theorem acc2_first (c : Dev nD) (t : Fin cfg2.N) (h0 : t.val % 4 = 0) :
    acc2 V c t.val t.isLt = k2_pay2 (xcols2 (grid2.coords t) (iblk2 V c 0 t)) (k2_pay1 (F := F)) (iblk2 V c 1 t) := by
  obtain ⟨n, hn⟩ := t
  cases n with
  | zero => rfl
  | succ n => simp only [acc2]; rw [if_pos h0]

theorem acc2_next (c : Dev nD) (t : Fin cfg2.N) (h0 : t.val % 4 ≠ 0) :
    acc2 V c t.val t.isLt = k2_pay2 (xcols2 (grid2.coords t) (iblk2 V c 0 t))
      (acc2 V c (t.val - 1) (Nat.lt_of_le_of_lt (Nat.sub_le _ _) t.isLt)) (iblk2 V c 1 t) := by
  obtain ⟨n, hn⟩ := t
  cases n with
  | zero => exact absurd rfl h0
  | succ n => simp only [acc2]; rw [if_neg h0]; rfl

/-- The body's step from what the point before left is the accumulator after the point. -/
theorem accStep2 (c : Dev nD) (t : Fin cfg2.N) (d : Vec F S256x2048 .f32)
    (hd : ∀ h : t.val - 1 < cfg2.N, t.val ≠ 0 → d = acc2 V c (t.val - 1) h) :
    step2 (grid2.coords t) (iblk2 V c 0 t) d (iblk2 V c 1 t) = acc2 V c t.val t.isLt := by
  unfold step2
  by_cases h0 : t.val % 4 = 0
  · rw [if_pos ((gridFacts2 t).1.mpr h0), acc2_first V c t h0]
  · rw [if_neg (fun h => h0 ((gridFacts2 t).1.mp h)), acc2_next V c t h0, hd _ (fun h => h0 (by rw [h]))]

theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- Before position n: what the launch hands over, with the accumulator at what point n - 1 left when there is one. -/
def Phi2 (c : Dev nD) (n : ℕ) : sProp 𝕄 :=
  iprop(iprop((∃ d, ⌜∀ h : n - 1 < cfg2.N, n ≠ 0 → d = acc2 V c (n - 1) h⌝ ∗ owns (c : Thread nD τ) scM2 fullShare d)
      ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := Phi2 V c t.val
  q _ := fullShare
  owed _ := 0

/-- Each input window's buffer holds its block of the array at every point. -/
theorem before2 (c : Dev nD) (t : Fin cfg2.N) : (∀ d, (dat2 V c).before 0 t d = iblk2 V c 0 t)
    ∧ (∀ d, (dat2 V c).before 1 t d = iblk2 V c 1 t) ∧ (∀ d, (dat2 V c).before 2 t d = iblk2 V c 2 t) := by
  have hA : ∀ w, (dat2 V c).A w = V c (Pipeline.arrRef spec2 w) := fun _ => rfl
  refine ⟨fun d => ?_, fun d => ?_, fun d => ?_⟩ <;>
  exact ((dat2 V c).before_in_eq_fetched _ rfl (fun _ => rfl) (fun _ _ _ => rfl)
    (fun t => by rw [show (dat2 V c).after _ t = iblk2 V c _ t from rfl]; unfold Dat.blockOf iblk2; rw [hA]; try rfl) t d).trans
    (by unfold Dat.fetched Dat.blockOf iblk2; rw [hA]; try rfl)

end Cert.Kernel.Mm

end
-- ==== Proof.KB2Oblig.lean ====
import proofs.«427408_j57458072485900_3_alg».proof.Proof.KB2Data

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves2 (c : Dev nD) (t : Fin cfg2.N) (d) :
    owns (c : Thread nD τ) (ms2_3 t) fullShare (if isLast2 (grid2.coords t) then k2_pay3 (acc2 V c t.val t.isLt) (iblk2 V c 2 t) else (dat2 V c).before 3 t d)
      ⊢ (dat2 V c).leavesExact 3 t := by
  obtain ⟨-, hL, -, -, -, i3, f3⟩ := gridFacts2 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body2 (c : Dev nD) (t : Fin cfg2.N) :
    iprop((dat2 V c).Φ t.castSucc ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t)) := by
  obtain ⟨hF, hL, l0, l1, l2, -, -⟩ := gridFacts2 t
  unfold bodyAt2
  simp only [(before2 V c t).1, (before2 V c t).2.1, (before2 V c t).2.2]
  rw [show (dat2 V c).owesAt () t.succ = (dat2 V c).owesAt () t.castSucc from rfl,
    show (dat2 V c).Φ t.succ = Phi2 V c (t.val + 1) from rfl, show (dat2 V c).Φ t.castSucc = Phi2 V c t.val from rfl,
    show (dat2 V c).leavesExact 0 t = owns (c : Thread nD τ) (ms2_0 t) fullShare (iblk2 V c 0 t) from by unfold Dat.leavesExact; rw [l0]; rfl,
    show (dat2 V c).leavesExact 1 t = owns (c : Thread nD τ) (ms2_1 t) fullShare (iblk2 V c 1 t) from by unfold Dat.leavesExact; rw [l1]; rfl,
    show (dat2 V c).leavesExact 2 t = owns (c : Thread nD τ) (ms2_2 t) fullShare (iblk2 V c 2 t) from by unfold Dat.leavesExact; rw [l2]; rfl]
  unfold Phi2
  iintro ⟨⟨⟨⟨%d, %hd, HS⟩, Hr⟩, Hg⟩, Ho, ⟨%d0, H0⟩, ⟨%d1, H1⟩, ⟨%d2, H2⟩, ⟨%d3, H3⟩⟩
  iapply (run2 c (grid2.coords t) _ _ _ _ _ _ _ _ scM2 (Memref.isWhole_whole _) (iblk2 V c 0 t) (iblk2 V c 1 t) (iblk2 V c 2 t)
    ((dat2 V c).before 3 t d3) d (fun h1 h2 => by have := hF.mp h1; have := hL.mp h2; omega) Set.univ _)
  rw [accStep2 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves2 V c t d3); iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [PhiA2_eq, show (dat2 V c).Φ 0 = Phi2 V c 0 from rfl]; unfold Phi2
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout2 (c : Dev nD) : (dat2 V c).Φ (Fin.last cfg2.N) ⊢ Pipeline.ΦA spec2 c := by
  rw [PhiA2_eq, show (dat2 V c).Φ (Fin.last cfg2.N) = Phi2 V c cfg2.N from rfl]; unfold Phi2
  iintro ⟨⟨⟨%d, -, HS⟩, Hr⟩, Hg⟩
  isplitl [HS Hr]
  · isplitl [HS]; · iexists d; iexact HS
    iexact Hr
  iexact Hg

end Cert.Kernel.Mm

end
-- ==== Proof.KB3Body.lean ====
import proofs.«427408_j57458072485900_3_alg».proof.Proof.Gen.Kernel.Launch
import proofs.«427408_j57458072485900_3_alg».proof.Proof.Gen.Kernel.Skeleton
import proofs.«427408_j57458072485900_3_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev isFirst3 (i : grid3.Coords) : Prop := (Scalar.cmpi .ne (Scalar.extui (Scalar.cmpi .eq (BitVec.ofNat 32 (i 2).val) 0#32)) 0#32) = 1#1
abbrev isLast3 (i : grid3.Coords) : Prop := k3_cond2 i = 1#1

theorem zeroOff3 : (![0, 0] : Fin 2 → ℕ) = fun _ => 0 := by funext a; fin_cases a <;> rfl

def xcols3 (i : grid3.Coords) (x0 : Vec F S256x8192 .bf16) : Vec F S256x2048 .bf16 :=
  View.ld x0 (Rect.unit (s := S256x8192) (k3_off1 i) S256x2048.size (k3_off1_inb i))

/-- The accumulator after a point: the block product added to zero at a first reduction step, to what it held otherwise. -/
def step3 (i : grid3.Coords) (x0 : Vec F S256x8192 .bf16) (xs0 : Vec F S256x2048 .f32) (x1 : Vec F S2048x2048 .bf16) : Vec F S256x2048 .f32 :=
  k3_pay2 (xcols3 i x0) (if isFirst3 i then k3_pay1 (F := F) else xs0) x1

set_option maxHeartbeats 3000000 in
/-- One grid point of the body, whichever of its two branches are taken. -/
theorem run3 (c : Dev nD) (i : grid3.Coords) (arg3 : Memref sig .tc .vmem S256x8192 .bf16) (harg3 : arg3.IsWhole) (arg4 : Memref sig .tc .vmem S2048x2048 .bf16) (harg4 : arg4.IsWhole) (arg5 : Memref sig .tc .vmem S1x2048 .f32) (harg5 : arg5.IsWhole) (arg6 : Memref sig .tc .vmem S256x2048 .f32) (harg6 : arg6.IsWhole) (arg7 : Memref sig .tc .vmem S256x2048 .f32) (harg7 : arg7.IsWhole)
    (x0 : Vec F S256x8192 .bf16) (x1 : Vec F S2048x2048 .bf16) (x2 : Vec F S1x2048 .f32) (xo : Vec F S256x2048 .f32) (xs0 : Vec F S256x2048 .f32)
    (hx : isFirst3 i → ¬isLast3 i) (E : Set ℕ) (K : PUnit → sProp 𝕄) :
        iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare (if isLast3 i then k3_pay3 (step3 i x0 xs0 x1) x2 else xo)
                ∗ owns (c : Thread nD τ) arg7 fullShare (step3 i x0 xs0 x1)) -∗ K ⟨⟩))
          ⊢ wp frame (wpE (defs₀ (F := F)) Variants.none c none) E (cc3__matmul_relu_kernel i arg3 harg3 arg4 harg4 arg5 harg5 arg6 harg6 arg7 harg7) K := by
  unfold step3
  by_cases hc0 : isFirst3 i <;> by_cases hc1 : isLast3 i
  · exact absurd hc1 (hx hc0)
  all_goals first | rw [if_pos hc0] | rw [if_neg hc0]
  all_goals first | rw [if_pos hc1] | rw [if_neg hc1]
  all_goals (
    simp only [cc3__matmul_relu_kernel_eq_skeleton]; unfold cc3__matmul_relu_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr
      swap; · iexact H3
      ipureintro
      first
      | ( sl_unfold_words
          rw [View.read_writes_eq_canon _ _ _ (fun y => ⟨_, List.mem_singleton_self _, View.mem_set_unit_zero zeroOff3 inb_S256x2048_S256x2048_0_0 y⟩), View.canon_unit_zero zeroOff3]
          simp only [View.readAt_eq_ld, harg3.read_unread, harg4.read_unread, harg5.read_unread, harg7.read_unread, View.ld_unit_zero (S := S256x2048) zeroOff3, View.ld_unit_zero (S := S2048x2048) zeroOff3, View.ld_unit_zero (S := S1x2048) zeroOff3, View.readCov_unit_zero (S := S256x2048) _ zeroOff3]
          rfl )
      | exact hf3
    iexists _; isplitr
    swap; · iexact HS0
    ipureintro
    sl_unfold_words
    first
    | rw [View.read_writes_eq_canon _ _ _ (fun y => ⟨_, List.mem_singleton_self _, View.mem_set_unit_zero zeroOff3 inb_S256x2048_S256x2048_0_0 y⟩), View.canon_unit_zero zeroOff3]
    | rw [View.read_writes_eq_canon _ _ _ (fun y => ⟨_, List.mem_cons.mpr (Or.inl rfl), View.mem_set_unit_zero zeroOff3 inb_S256x2048_S256x2048_0_0 y⟩), View.canon_cons_unit_zero zeroOff3]
    simp only [View.readAt_eq_ld, harg3.read_unread, harg4.read_unread, harg7.read_unread, View.ld_unit_zero (S := S256x2048) zeroOff3, View.ld_unit_zero (S := S2048x2048) zeroOff3, View.readCov_unit_zero (S := S256x2048) _ zeroOff3]
    try rfl )

end Cert.Kernel.Mm

end
-- ==== Proof.KB3Data.lean ====
import proofs.«427408_j57458072485900_3_alg».proof.Proof.KB3Body

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Over the sixteen points t = 4 j + k: the first branch is taken at k = 0, the second at k = 3, and window 3 is idle away from k = 3. -/
theorem gridFacts3 : ∀ t : Fin cfg3.N, (isFirst3 (grid3.coords t) ↔ t.val % 4 = 0) ∧ (isLast3 (grid3.coords t) ↔ t.val % 4 = 3)
    ∧ cfg3.idle 0 (grid3.coords t) = false ∧ cfg3.idle 1 (grid3.coords t) = false ∧ cfg3.idle 2 (grid3.coords t) = false
    ∧ cfg3.idle 3 (grid3.coords t) = !decide (t.val % 4 = 3) ∧ (cfg3.win 3).flush t = decide (t.val % 4 = 3) :=
  (by decide +kernel : ∀ t : Fin grid3.N, _)

abbrev ms3_0 (t : Fin cfg3.N) : Memref sig .tc .vmem S256x8192 .bf16 := win3_0.stage (cfg3.slots t 0)
abbrev ms3_1 (t : Fin cfg3.N) : Memref sig .tc .vmem S2048x2048 .bf16 := win3_1.stage (cfg3.slots t 1)
abbrev ms3_2 (t : Fin cfg3.N) : Memref sig .tc .vmem S1x2048 .f32 := win3_2.stage (cfg3.slots t 2)
abbrev ms3_3 (t : Fin cfg3.N) : Memref sig .tc .vmem S256x2048 .f32 := win3_3.stage (cfg3.slots t 3)
abbrev scM3 : Memref sig .tc .vmem S256x2048 .f32 := Memref.whole cc3_scratch0

/-- The accumulator after point n: the point's block product added to zero at k = 0, to what point n - 1 left otherwise. -/
def acc3 (c : Dev nD) : (n : ℕ) → n < cfg3.N → Vec F S256x2048 .f32
  | 0, hn => k3_pay2 (xcols3 (grid3.coords ⟨0, hn⟩) (iblk3 V c 0 ⟨0, hn⟩)) (k3_pay1 (F := F)) (iblk3 V c 1 ⟨0, hn⟩)
  | n + 1, hn => k3_pay2 (xcols3 (grid3.coords ⟨n + 1, hn⟩) (iblk3 V c 0 ⟨n + 1, hn⟩))
      (if (n + 1) % 4 = 0 then (k3_pay1 (F := F)) else acc3 c n (Nat.lt_of_succ_lt hn)) (iblk3 V c 1 ⟨n + 1, hn⟩)

theorem acc3_first (c : Dev nD) (t : Fin cfg3.N) (h0 : t.val % 4 = 0) :
    acc3 V c t.val t.isLt = k3_pay2 (xcols3 (grid3.coords t) (iblk3 V c 0 t)) (k3_pay1 (F := F)) (iblk3 V c 1 t) := by
  obtain ⟨n, hn⟩ := t
  cases n with
  | zero => rfl
  | succ n => simp only [acc3]; rw [if_pos h0]

theorem acc3_next (c : Dev nD) (t : Fin cfg3.N) (h0 : t.val % 4 ≠ 0) :
    acc3 V c t.val t.isLt = k3_pay2 (xcols3 (grid3.coords t) (iblk3 V c 0 t))
      (acc3 V c (t.val - 1) (Nat.lt_of_le_of_lt (Nat.sub_le _ _) t.isLt)) (iblk3 V c 1 t) := by
  obtain ⟨n, hn⟩ := t
  cases n with
  | zero => exact absurd rfl h0
  | succ n => simp only [acc3]; rw [if_neg h0]; rfl

/-- The body's step from what the point before left is the accumulator after the point. -/
theorem accStep3 (c : Dev nD) (t : Fin cfg3.N) (d : Vec F S256x2048 .f32)
    (hd : ∀ h : t.val - 1 < cfg3.N, t.val ≠ 0 → d = acc3 V c (t.val - 1) h) :
    step3 (grid3.coords t) (iblk3 V c 0 t) d (iblk3 V c 1 t) = acc3 V c t.val t.isLt := by
  unfold step3
  by_cases h0 : t.val % 4 = 0
  · rw [if_pos ((gridFacts3 t).1.mpr h0), acc3_first V c t h0]
  · rw [if_neg (fun h => h0 ((gridFacts3 t).1.mp h)), acc3_next V c t h0, hd _ (fun h => h0 (by rw [h]))]

theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- Before position n: what the launch hands over, with the accumulator at what point n - 1 left when there is one. -/
def Phi3 (c : Dev nD) (n : ℕ) : sProp 𝕄 :=
  iprop(iprop((∃ d, ⌜∀ h : n - 1 < cfg3.N, n ≠ 0 → d = acc3 V c (n - 1) h⌝ ∗ owns (c : Thread nD τ) scM3 fullShare d)
      ∗ Pipeline.scopedRestBut (Ix := Unit) (Name := ℕ) (U := UR sig nD τ) (Lvl := ℕ) (Val := Elt F) spec3 c [cc3_scratch0]) ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := Phi3 V c t.val
  q _ := fullShare
  owed _ := 0

/-- Each input window's buffer holds its block of the array at every point. -/
theorem before3 (c : Dev nD) (t : Fin cfg3.N) : (∀ d, (dat3 V c).before 0 t d = iblk3 V c 0 t)
    ∧ (∀ d, (dat3 V c).before 1 t d = iblk3 V c 1 t) ∧ (∀ d, (dat3 V c).before 2 t d = iblk3 V c 2 t) := by
  have hA : ∀ w, (dat3 V c).A w = V c (Pipeline.arrRef spec3 w) := fun _ => rfl
  refine ⟨fun d => ?_, fun d => ?_, fun d => ?_⟩ <;>
  exact ((dat3 V c).before_in_eq_fetched _ rfl (fun _ => rfl) (fun _ _ _ => rfl)
    (fun t => by rw [show (dat3 V c).after _ t = iblk3 V c _ t from rfl]; unfold Dat.blockOf iblk3; rw [hA]; try rfl) t d).trans
    (by unfold Dat.fetched Dat.blockOf iblk3; rw [hA]; try rfl)

end Cert.Kernel.Mm

end
-- ==== Proof.KB3Oblig.lean ====
import proofs.«427408_j57458072485900_3_alg».proof.Proof.KB3Data

set_option maxRecDepth 16384

noncomputable section

namespace Cert.Kernel.Mm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body leaves in the output's buffer is what the proof data ask of it: the stored block at k = 3, the buffer as found otherwise. -/
theorem leaves3 (c : Dev nD) (t : Fin cfg3.N) (d) :
    owns (c : Thread nD τ) (ms3_3 t) fullShare (if isLast3 (grid3.coords t) then k3_pay3 (acc3 V c t.val t.isLt) (iblk3 V c 2 t) else (dat3 V c).before 3 t d)
      ⊢ (dat3 V c).leavesExact 3 t := by
  obtain ⟨-, hL, -, -, -, i3, f3⟩ := gridFacts3 t
  by_cases h3 : t.val % 4 = 3
  · rw [if_pos (hL.mpr h3)]; unfold Dat.leavesExact; rw [i3, decide_eq_true h3]; exact .rfl
  · rw [if_neg (fun h => h3 (hL.mp h)), Dat.leavesExact_idle _ 3 t (by rw [i3, decide_eq_false h3]; rfl) (by rw [f3, decide_eq_false h3])]
    iintro H; iexists d; iexact H

set_option maxHeartbeats 1600000 in
theorem sound_body3 (c : Dev nD) (t : Fin cfg3.N) :
    iprop((dat3 V c).Φ t.castSucc ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t)) := by
  obtain ⟨hF, hL, l0, l1, l2, -, -⟩ := gridFacts3 t
  unfold bodyAt3
  simp only [(before3 V c t).1, (before3 V c t).2.1, (before3 V c t).2.2]
  rw [show (dat3 V c).owesAt () t.succ = (dat3 V c).owesAt () t.castSucc from rfl,
    show (dat3 V c).Φ t.succ = Phi3 V c (t.val + 1) from rfl, show (dat3 V c).Φ t.castSucc = Phi3 V c t.val from rfl,
    show (dat3 V c).leavesExact 0 t = owns (c : Thread nD τ) (ms3_0 t) fullShare (iblk3 V c 0 t) from by unfold Dat.leavesExact; rw [l0]; rfl,
    show (dat3 V c).leavesExact 1 t = owns (c : Thread nD τ) (ms3_1 t) fullShare (iblk3 V c 1 t) from by unfold Dat.leavesExact; rw [l1]; rfl,
    show (dat3 V c).leavesExact 2 t = owns (c : Thread nD τ) (ms3_2 t) fullShare (iblk3 V c 2 t) from by unfold Dat.leavesExact; rw [l2]; rfl]
  unfold Phi3
  iintro ⟨⟨⟨⟨%d, %hd, HS⟩, Hr⟩, Hg⟩, Ho, ⟨%d0, H0⟩, ⟨%d1, H1⟩, ⟨%d2, H2⟩, ⟨%d3, H3⟩⟩
  iapply (run3 c (grid3.coords t) _ _ _ _ _ _ _ _ scM3 (Memref.isWhole_whole _) (iblk3 V c 0 t) (iblk3 V c 1 t) (iblk3 V c 2 t)
    ((dat3 V c).before 3 t d3) d (fun h1 h2 => by have := hF.mp h1; have := hL.mp h2; omega) Set.univ _)
  rw [accStep3 V c t d hd]
  isplitl [H0]; · iexact H0
  isplitl [H1]; · iexact H1
  isplitl [H2]; · iexact H2
  isplitl [H3]; · iexact H3
  isplitl [HS]; · iexact HS
  iintro ⟨H0, H1, H2, H3, HS⟩
  isplitl [HS Hr Hg]
  · isplitl [HS Hr]
    · isplitl [HS]
      · iexists _; isplitr
        swap; · iexact HS
        ipureintro; intro _ _; rfl
      iexact Hr
    iexact Hg
  isplitl [Ho]; · iexact Ho
  isplitl [H0]; · iexact H0
  isplitl [H1]; · iexact H1
  isplitl [H2]; · iexact H2
  iapply (leaves3 V c t d3); iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq, show (dat3 V c).Φ 0 = Phi3 V c 0 from rfl]; unfold Phi3
  iintro ⟨⟨⟨%d, HS⟩, Hr⟩, Hg⟩
  isplitl [HS Hr]
  · isplitl [HS]
    · iexists d; isplitr; · ipureintro; exact fun _ h => absurd rfl h
      iexact HS
    iexact Hr
  iexact Hg

theorem hout3 (c : Dev nD) : (dat3 V c).Φ (Fin.last cfg3.N) ⊢ Pipeline.ΦA spec3 c := by
  rw [PhiA3_eq, show (dat3 V c).Φ (Fin.last cfg3.N) = Phi3 V c cfg3.N from rfl]; unfold Phi3
  iintro ⟨⟨⟨%d, -, HS⟩, Hr⟩, Hg⟩
  isplitl [HS Hr]
  · isplitl [HS]; · iexists d; iexact HS
    iexact Hr
  iexact Hg

end Cert.Kernel.Mm

end
-- ==== Proof.KBRun.lean ====
import proofs.«427408_j57458072485900_3_alg».proof.Proof.KB0Oblig
import proofs.«427408_j57458072485900_3_alg».proof.Proof.KB1Oblig
import proofs.«427408_j57458072485900_3_alg».proof.Proof.KB2Oblig
import proofs.«427408_j57458072485900_3_alg».proof.Proof.KB3Oblig
import proofs.«427408_j57458072485900_3_alg».proof.Proof.Gen.Kernel.Regions
import Idealize.ShloMosaic.Lib.Pipeline.RegionsLoop
import Idealize.ShloMosaic.Lib.Pipeline.FrameSuffix

noncomputable section

namespace Cert.Kernel.Mm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.Kernel Cert.Kernel.Gen

variable {F : FTy → Type} [FloatOps F]

local notation "𝕄" => MT nD τ sig Unit (Elt F) ℕ (UR sig nD τ) ℕ

-- The contents of every buffer of every core.
abbrev Vals (F : FTy → Type) := Dev nD → Valuation τ sig (Elt F)

-- Contents read at the core's own references.
abbrev onCore (W : Vals F) (c : Dev nD) (b : Ref sig .tc) : Buf (Elt F) ((c : Thread nD τ).loc b) := W c b

-- The contents after a host stretch.
abbrev afterHost (ops : List (HloOp τ sig (Elt F))) (W : Vals F) : Vals F := fun c => StableHlo.after ops (W c)

-- Product `p`'s configuration.
abbrev cfgOf (F : FTy → Type) [FloatOps F] (p : Fin 4) : Cfg sig Λ₀ := Pipeline.pin (pcfgs (F := F)) adm p

-- The contents after product `p`: its arrays at their final contents, every other buffer as entered.
abbrev afterCall {p : Fin 4} (dat : (c : Dev nD) → Dat τ (Elt F) Unit ℕ (UR sig nD τ) ℕ (cfgOf F p) c) (W : Vals F) : Vals F :=
  fun c => Pipeline.withArrays (cfgOf F p).spec c (W c) fun w => (dat c).arrAt w (cfgOf F p).N

-- A buffer the stretch does not write and that is no array of the product comes through both unchanged.
theorem kept_step (ops : List (HloOp τ sig (Elt F))) {l : List (Ref sig .tc)}
    (hl : ops.Forall fun op => op.writes ⊆ (l.map (Proc.devRef (τ := τ) .tc)).toFinset) {p : Fin 4}
    (dat : (c : Dev nD) → Dat τ (Elt F) Unit ℕ (UR sig nD τ) ℕ (cfgOf F p) c) (W : Vals F) (c : Dev nD)
    {b : Ref sig .tc} (h : b ∉ l ∧ ∀ w, Pipeline.arrRef (cfgOf F p).spec w ≠ b) : afterCall dat (afterHost ops W) c b = W c b :=
  (Pipeline.withArrays_of_ne _ c _ _ b h.2).trans (StableHlo.after_of_writes_sub ops _ hl h.1)

-- An array of the product ends at its final contents.
theorem afterCall_arr {p : Fin 4} (hinj : Function.Injective (Pipeline.arrRef (cfgOf F p).spec))
    (dat : (c : Dev nD) → Dat τ (Elt F) Unit ℕ (UR sig nD τ) ℕ (cfgOf F p) c) (W : Vals F) (c : Dev nD)
    (w : Fin (cfgOf F p).W) : afterCall dat W c (Proc.devRef .tc (Pipeline.arrRef (cfgOf F p).spec w)) = (dat c).arrAt w (cfgOf F p).N :=
  Pipeline.withArrays_arr _ hinj c _ _ w

variable (m : (ℓ : Loc nD τ sig) → Buf (Elt F) ℓ)

abbrev W0 : Vals F := fun c b => m (c, b)
abbrev W1 := afterHost hostOps0 (W0 m)
def W2 := afterCall (p := 0) (dat0 (onCore (W1 m))) (W1 m)
abbrev W3 := afterHost hostOps1 (W2 m)
def W4 := afterCall (p := 1) (dat1 (onCore (W3 m))) (W3 m)
abbrev W5 := afterHost hostOps2 (W4 m)
def W6 := afterCall (p := 2) (dat2 (onCore (W5 m))) (W5 m)
abbrev W7 := afterHost hostOps3 (W6 m)
def W8 := afterCall (p := 3) (dat3 (onCore (W7 m))) (W7 m)

-- No host stretch writes `b` and no product has it as an array.
abbrev Kept (b : Ref sig .tc) : Prop :=
  (b ∉ hostOps0_W ∧ ∀ w, Pipeline.arrRef spec0 w ≠ b) ∧ (b ∉ hostOps1_W ∧ ∀ w, Pipeline.arrRef spec1 w ≠ b)
    ∧ (b ∉ hostOps2_W ∧ ∀ w, Pipeline.arrRef spec2 w ≠ b) ∧ b ∉ hostOps3_W ∧ ∀ w, Pipeline.arrRef spec3 w ≠ b

-- Such a buffer holds, after every product, what the launch put there.
theorem kept (c : Dev nD) {b : Ref sig .tc} (h : Kept b) :
    W2 m c b = W0 m c b ∧ W4 m c b = W0 m c b ∧ W6 m c b = W0 m c b ∧ W8 m c b = W0 m c b := by
  have h2 : W2 m c b = W0 m c b := kept_step hostOps0 hostOps0_writes _ _ c h.1
  have h4 : W4 m c b = W0 m c b := (kept_step hostOps1 hostOps1_writes _ _ c h.2.1).trans h2
  have h6 : W6 m c b = W0 m c b := (kept_step hostOps2 hostOps2_writes _ _ c h.2.2.1).trans h4
  exact ⟨h2, h4, h6, (kept_step hostOps3 hostOps3_writes _ _ c h.2.2.2).trans h6⟩

def pdats : (p : Fin 4) → (c : Dev nD) → Dat τ (Elt F) Unit ℕ (UR sig nD τ) ℕ (cfgOf F p) c
  | ⟨0, _⟩ => dat0 (onCore (W1 m))
  | ⟨1, _⟩ => dat1 (onCore (W3 m))
  | ⟨2, _⟩ => dat2 (onCore (W5 m))
  | ⟨3, _⟩ => dat3 (onCore (W7 m))
-- Every product's data hold full shares, owe nothing and bound the recorded pairs by nothing.
theorem pdats_nil (p : Fin 4) (c : Dev nD) : (∀ w, (pdats m p c).q w = fullShare) ∧ (∀ t, (pdats m p c).owed t = 0)
    ∧ ∀ t, (pdats m p c).recorded t = Set.univ := by
  match p with
  | ⟨0, _⟩ | ⟨1, _⟩ | ⟨2, _⟩ | ⟨3, _⟩ => exact ⟨fun _ => rfl, fun _ => rfl, fun _ => rfl⟩
abbrev 𝒱₀ : Variants := Variants.none
abbrev L : GSem nD τ sig → Finset Unit := fun _ => ∅
abbrev lv : GSem nD τ sig → Unit → ℕ := fun _ _ => 0
-- Beside its buffers a core holds, between items, its generator register at some state, and owes nothing.
abbrev R (c : Dev nD) : sProp 𝕄 := iprop((∃ r, prngReg c r) ∗ ∃ W, owes (c : Thread nD τ) (0 : CellTallies nD τ sig Unit) W)
-- Between items every unscoped buffer is held whole at named contents.
abbrev heldAt (W : Vals F) (c : Dev nD) : sProp 𝕄 :=
  iprop(StableHlo.held (c : Thread nD τ) (Pipeline.ucRefs τ sig) (W c) ∗ R c)

abbrev hseg (ops : List (HloOp τ sig (Elt F))) (hsub : ops.Forall fun op => op.bufs ⊆ StableHlo.tcRefs τ sig)
    (hfresh : ops.Forall fun op => op.fresh = ∅) (W : Vals F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h))
    (List.forall_iff_forall_mem.mp hfresh) W R

set_option backward.isDefEq.respectTransparency.types false in
-- Product `p` as a segment from the contents `W` to `afterCall (pdats m p) W`.
def reg (p : Fin 4) (lf : Pipeline.LaunchFacts (nD := nD) (τ := τ) cfgs p) (W : Vals F)
    (hb : ∀ c, BodyObligation (pdats m p c) defs₀ 𝒱₀ () Set.univ)
    (hi : ∀ c, Pipeline.ΦA (cfgOf F p).spec c ⊢ (pdats m p c).Φ 0)
    (ho : ∀ c, (pdats m p c).Φ (Fin.last (cfgOf F p).N) ⊢ Pipeline.ΦA (cfgOf F p).spec c)
    (hA : ∀ c w, (pdats m p c).A w = onCore W c (Pipeline.arrRef (cfgOf F p).spec w)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_nil m p c).2.1
  pre := heldAt W
  post := heldAt (afterCall (pdats m p) W)
  X c := iprop(∃ r, prngReg c r)
  Y c := iprop(∃ r, prngReg c r)
  Z c := Pipeline.unscopedRest (cfgOf F p).spec c (onCore W c)
  hentry c := by
    rw [Pipeline.ownSems0_none]
    have hsplit := Pipeline.arrays_of_unscopedBufs (p := p) _ _ (pdats m) lf.win lf.arr_whole c
      ((pdats m p c).share_full (pdats_nil m p c).1) (onCore W c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [(pdats_nil m p c).2.1, (pdats_nil m p c).2.2]
      icases HO with ⟨%T, HO⟩; iexists T; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    refine (ho c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) _ _ lf.win lf.arr_whole c (pdats m)
      ((pdats m p c).share_full (pdats_nil m p c).1) (onCore W c) (onCore (afterCall (pdats m p) W) c) ((pdats m p c).arrAt · (cfgOf F p).N) (fun w => (afterCall_arr lf.win.arr_inj (pdats m p) W c w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [(pdats_nil m p c).2.1]
    icases HO with ⟨%T, -, HO⟩; iexists T; iexact HO

def reg0 := reg m 0 launch0 (W1 m) (body_obligation0 _) (hin0 _) (hout0 _) fun _ _ => rfl
def reg1 := reg m 1 launch1 (W3 m) (body_obligation1 _) (hin1 _) (hout1 _) fun _ _ => rfl
def reg2 := reg m 2 launch2 (W5 m) (body_obligation2 _) (hin2 _) (hout2 _) fun _ _ => rfl
def reg3 := reg m 3 launch3 (W7 m) (body_obligation3 _) (hin3 _) (hout3 _) fun _ _ => rfl

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
-- Every fair execution terminates with each unscoped buffer at the last contents, a `Kept` one as launched.
theorem run_main (ρ : Dev nD → PrngReg) : θ_run defs (onTc (τ := τ) (main (F := F))) ⟨m, fun _ => 0, ρ⟩ (fun r => ∀ (c : Dev nD) (b : Ref sig .tc),
      ¬ (Proc.devRef .tc b : DevRef τ sig).isScoped → r.2.mem ((c : Thread nD τ).loc b) = W8 m c b
        ∧ (Kept b → r.2.mem ((c : Thread nD τ).loc b) = m ((c : Thread nD τ).loc b))) :=
  Pipeline.θ_run_regions_kit (pcfgs (F := F)) adm (pdats m) () cellOf_inj emb₁ defs₀ 𝒱₀ L lv m ρ main (segs m)
    (fun c Q => by rw [main_chain c, Pipeline.Seg.run_eq_chain]; exact .rfl)
    (by simp only [segs, Pipeline.Seg.pipes_host, Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      rw [ownU_emb₁, BI.bigSep_emp_const]
      iintro Hu; imodintro
      isplitl [Hu]; · iexact Hu
      iempintro)
    (T₀ := heldAt (W0 m))
    (Tₙ := fun c => iprop(StableHlo.held (c : Thread nD τ) (Pipeline.ucRefs τ sig) (W8 m c) ∗ ∃ r, prngReg c r))
    (hch := ⟨fun _ => .rfl, fun _ => .rfl, fun _ => .rfl, fun _ => .rfl, fun _ => .rfl, fun _ => .rfl, fun _ => .rfl, fun _ => .rfl,
      fun _ => sep_assoc.2⟩)
    (hinit := by
      refine Pipeline.initEach L lv fun c => ?_
      rw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c b hb =>
      have e := h c _ (Finset.mem_filter.mpr ⟨StableHlo.devRef_mem_tcRefs b, hb⟩)
      ⟨e, fun hk => e.trans (kept m c hk).2.2.2⟩)

end Cert.Kernel.Mm

end
-- ==== Proof.LibDot.lean ====
import Idealize.ShloMosaic.Lib.StackMember

namespace Cert.GNN

open Idealize.ShloMosaic Idealize.ShloMosaic.ValueIdx

-- A product into a zero block and the host's product are one sum over the contraction index, which the library re-indexes by the shared axis.
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs _).trans
    ((Ideal.dotGeneral_apply _ prec _ lhs rhs _).symm.trans (StackMember.dotGeneral_plain_apply prec lhs rhs p q))

end Cert.GNN
-- ==== Proof.Spec.lean ====
import Mathlib.Data.EReal.Operations
import Mathlib.Algebra.BigOperators.Fin
import Mathlib.Algebra.BigOperators.Ring.Finset

noncomputable section

namespace Cert.Spec

open Finset

def blk (k : Fin 4) (a : Fin 2048) : Fin 8192 := ⟨2048 * k.val + a.val, by have := k.isLt; have := a.isLt; omega⟩

variable (src dst : Fin 262144 → Fin 8192) (w : Fin 262144 → EReal) (bias : Fin 8192 → EReal)

def edgeSum (h : Fin 8192 → EReal) (n : Fin 8192) : EReal :=
  ∑ e ∈ univ.filter (fun e => dst e = n), h (src e) * w e

def layerRow (h : Fin 8192 → EReal) : Fin 8192 → EReal :=
  fun n => max (edgeSum src dst w h n + bias n) 0

def adj (s n : Fin 8192) : EReal :=
  0 + ∑ e ∈ univ.filter (fun e => src e = s ∧ dst e = n), w e

def denseRow (M : Fin 8192 → Fin 8192 → EReal) (h : Fin 8192 → EReal) : Fin 8192 → EReal :=
  fun n => max (((((0 + ∑ a : Fin 2048, h (blk 0 a) * M (blk 0 a) n) + ∑ a : Fin 2048, h (blk 1 a) * M (blk 1 a) n)
      + ∑ a : Fin 2048, h (blk 2 a) * M (blk 2 a) n) + ∑ a : Fin 2048, h (blk 3 a) * M (blk 3 a) n) + bias n) 0

def IsReal {ι : Type} (f : ι → EReal) : Prop := ∀ i, ∃ r : ℝ, f i = (r : EReal)

-- The coercion of the reals is additive, so it goes through finite sums.
@[norm_cast] theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- The pairs (block, place) number the sources: four block sums in order are the whole sum.
theorem sum_blocks {M : Type} [AddCommMonoid M] (f : Fin 8192 → M) :
    ((((0 + ∑ a : Fin 2048, f (blk 0 a)) + ∑ a : Fin 2048, f (blk 1 a)) + ∑ a : Fin 2048, f (blk 2 a))
      + ∑ a : Fin 2048, f (blk 3 a)) = ∑ s, f s := by
  rw [← (finProdFinEquiv (m := 4) (n := 2048)).sum_comp f, Fintype.sum_prod_type, Fin.sum_univ_four, zero_add]
  have e : ∀ k a, (finProdFinEquiv (k, a) : Fin (4 * 2048)) = blk k a := fun k a => Fin.ext (Nat.add_comm _ _)
  simp only [e]

-- Distributivity over the reals: group the edges into a destination by their source.
theorem real_dense_eq_edges (n : Fin 8192) (hr : Fin 8192 → ℝ) (wr : Fin 262144 → ℝ) :
    ∑ s, hr s * ∑ e ∈ univ.filter (fun e => src e = s ∧ dst e = n), wr e
      = ∑ e ∈ univ.filter (fun e => dst e = n), hr (src e) * wr e := by
  rw [← Finset.sum_fiberwise (univ.filter (fun e => dst e = n)) src]
  refine Finset.sum_congr rfl fun s _ => ?_
  rw [Finset.mul_sum, Finset.filter_filter]
  exact Finset.sum_congr (by ext e; simp [and_comm]) fun e he => by rw [(Finset.mem_filter.1 he).2.2]

-- On real activations and weights the dense route is the edges' sum: the step is distributivity.
theorem denseRow_adj_eq_layerRow (hw : IsReal w) (h : Fin 8192 → EReal) (hh : IsReal h) :
    denseRow bias (adj src dst w) h = layerRow src dst w bias h := by
  choose hr hhr using hh
  choose wr hwr using hw
  funext n
  refine congrArg (fun t => max (t + bias n) 0) ((sum_blocks fun s => h s * adj src dst w s n).trans ?_)
  simp only [adj, edgeSum, hhr, hwr, zero_add]
  exact_mod_cast real_dense_eq_edges src dst n hr wr

theorem layerRow_isReal (hw : IsReal w) (hb : IsReal bias) (h : Fin 8192 → EReal) (hh : IsReal h) :
    IsReal (layerRow src dst w bias h) := by
  choose hr hhr using hh
  choose wr hwr using hw
  intro n
  obtain ⟨b, hbn⟩ := hb n
  refine ⟨max ((∑ e ∈ univ.filter (fun e => dst e = n), hr (src e) * wr e) + b) 0, ?_⟩
  simp only [layerRow, edgeSum, hhr, hwr, hbn, EReal.coe_strictMono.monotone.map_max]
  norm_cast

end Cert.Spec

end
-- ==== Proof.PayValue.lean ====
import proofs.«427408_j57458072485900_3_alg».proof.Proof.Gen.KernelIdeal.Skeleton
import proofs.«427408_j57458072485900_3_alg».proof.Proof.LibDot
import proofs.«427408_j57458072485900_3_alg».proof.Proof.Spec
import Idealize.ShloMosaic.Lib.ValueLayout

namespace Cert.KernelIdeal.PayValue

open Cert.KernelIdeal Cert.KernelIdeal.Gen Idealize.ShloMosaic Idealize.ShloMosaic.ValueIdx

-- What a call's three payloads are at an entry: zero; the accumulator plus the block product; the accumulator plus the bias row, clipped at zero.
structure Pays {φ : FTy} (P1 : FVec Ideal S256x2048 .f32)
    (P2 : Vec Ideal S256x2048 .bf16 → Vec Ideal S256x2048 .f32 → Vec Ideal S2048x2048 .bf16 → FVec Ideal S256x2048 .f32)
    (P3 : Vec Ideal S256x2048 .f32 → Vec Ideal S1x2048 .f32 → FVec Ideal S256x2048 φ) : Prop where
  zero : ∀ p q, P1 (ix2 p q) = 0
  step : ∀ x z m p q, P2 x z m (ix2 p q) = z (ix2 p q) + ∑ a : Fin 2048, x (ix2 p a) * m (ix2 a q)
  last : ∀ z b p q, P3 z b (ix2 p q) = max (z (ix2 p q) + b (ix2 0 q)) 0

-- At the ideal values a cast to the same shape and a change of float format are the identity, and a product into zero is the sum over the shared axis.
theorem pays0 : Pays (k0_pay1 (F := Ideal)) k0_pay2 k0_pay3 where
  zero p q := by unfold k0_pay1; rw [shapeCast_self]; exact Ideal.ofBits_zero_f32
  step x z m p q := by
    unfold k0_pay2; rw [shapeCast_self, shapeCast_self, shapeCast_self]
    exact congrArg (z (ix2 p q) + ·) (Cert.GNN.matmul_plain_zero_apply (M := 256) (K := 2048) (N := 2048) none x m p q)
  last z b p q := by
    unfold k0_pay3; rw [shapeCast_self]
    show max (z (ix2 p q) + broadcastTo S256x2048 b broadcasts_S1x2048_S256x2048 (ix2 p q)) (Ideal.ofBits .f32 0x00000000#32) = _
    rw [broadcastTo_1b_ab_apply, Ideal.ofBits_zero_f32]

-- The four calls' payloads are the same terms, but for the change of format the last call's closing step lacks.
theorem pays1 : Pays (k1_pay1 (F := Ideal)) k1_pay2 k1_pay3 := pays0
theorem pays2 : Pays (k2_pay1 (F := Ideal)) k2_pay2 k2_pay3 := pays0
theorem pays3 : Pays (k3_pay1 (F := Ideal)) k3_pay2 k3_pay3 := ⟨pays0.zero, pays0.step, pays0.last⟩

-- Four steps from zero over blocks that are the arrays' blocks, then the closing step: the dense layer at row p, column n.
theorem Pays.dense {φ : FTy} {P1 P2} {P3 : Vec Ideal S256x2048 .f32 → Vec Ideal S1x2048 .f32 → FVec Ideal S256x2048 φ} (h : Pays P1 P2 P3)
    (Vx : S256x8192.Idx → EReal) (Vm : S8192x8192.Idx → EReal) (Vb : S1x8192.Idx → EReal) (p : Fin 256) (n : Fin 8192) (q : Fin 2048)
    (xc : Fin 4 → S256x2048.Idx → EReal) (m : Fin 4 → S2048x2048.Idx → EReal) (bb : S1x2048.Idx → EReal)
    (hx : ∀ k a, xc k (ix2 p a) = Vx (ix2 p (Cert.Spec.blk k a))) (hm : ∀ k a, m k (ix2 a q) = Vm (ix2 (Cert.Spec.blk k a) n))
    (hb : bb (ix2 0 q) = Vb (ix2 0 n)) :
    P3 (P2 (xc 3) (P2 (xc 2) (P2 (xc 1) (P2 (xc 0) P1 (m 0)) (m 1)) (m 2)) (m 3)) bb (ix2 p q)
      = Cert.Spec.denseRow (fun n' => Vb (ix2 0 n')) (fun s n' => Vm (ix2 s n')) (fun s => Vx (ix2 p s)) n := by
  rw [h.last, h.step, h.step, h.step, h.step, h.zero]
  unfold Cert.Spec.denseRow
  simp only [hx, hm, hb]

-- Every column n of 8192 is column 2048 (n / 2048) + n % 2048.
theorem exists_blk (i : S256x8192.Idx) : ∃ (p : Fin 256) (j : Fin 4) (q : Fin 2048), i = ix2 p (Cert.Spec.blk j q) :=
  have hi : (i 1).val < 8192 := (i 1).isLt
  ⟨i 0, ⟨(i 1).val / 2048, by omega⟩, ⟨(i 1).val % 2048, Nat.mod_lt _ (by decide)⟩, Shape.idx_ext₂ rfl (Nat.div_add_mod _ _).symm⟩

end Cert.KernelIdeal.PayValue
-- ==== Proof.K0Value.lean ====
import proofs.«427408_j57458072485900_3_alg».proof.Proof.K0Data
import proofs.«427408_j57458072485900_3_alg».proof.Proof.PayValue

namespace Cert.KernelIdeal.Mm

open Gen Idealize.ShloMosaic Idealize.ShloMosaic.ValueIdx
open Idealize.ShloMosaic.TcCoe Idealize.SL.Sem PayValue

variable (V : (c : Dev nD) → (b : Ref sig .tc) → Buf (Elt Ideal) ((c : Thread nD τ).loc b)) (c : Dev nD)

namespace Out0

-- Point 4 j + k of the sixteen: column block j, reduction step k.
def pt (j k : Fin 4) : Fin cfg0.N := ⟨4 * j.val + k.val, by have := j.isLt; have := k.isLt; show _ < 16; omega⟩

-- At point 4 j + k: the windows' block indices, and the offsets of the columns multiplied there.
theorem idx : ∀ j k : Fin 4,
    win0_0.index (pt j k) 0 = 0 ∧ win0_0.index (pt j k) 1 = 0
    ∧ win0_1.index (pt j k) 0 = k.val ∧ win0_1.index (pt j k) 1 = j.val
    ∧ win0_2.index (pt j k) 0 = 0 ∧ win0_2.index (pt j k) 1 = j.val
    ∧ win0_3.index (pt j k) 0 = 0 ∧ win0_3.index (pt j k) 1 = j.val
    ∧ k0_off1 (grid0.coords (pt j k)) 0 = 0 ∧ k0_off1 (grid0.coords (pt j k)) 1 = 2048 * k.val := by
  decide +kernel

-- Entry (p, a) of the columns multiplied at step k is entry (p, 2048 k + a) of the activations.
theorem x_read (j k : Fin 4) (p : Fin 256) (a : Fin 2048) :
    (xcols0 (grid0.coords (pt j k)) (iblk0 V c 0 (pt j k)) : S256x2048.Idx → EReal) (ix2 p a)
      = (V c main_call0_v19 : S256x8192.Idx → EReal) (ix2 p (Cert.Spec.blk k a)) := by
  obtain ⟨h0, h1, -, -, -, -, -, -, o0, o1⟩ := idx j k
  refine congrArg (V c main_call0_v19 : S256x8192.Idx → EReal) (Shape.idx_ext₂ ?_ ?_)
  · show win0_0.index (pt j k) 0 * 256 + 1 * (k0_off1 (grid0.coords (pt j k)) 0 + 1 * p.val) = p.val; omega
  · show win0_0.index (pt j k) 1 * 8192 + 1 * (k0_off1 (grid0.coords (pt j k)) 1 + 1 * a.val) = 2048 * k.val + a.val; omega

-- Entry (a, q) of window 1's block at point 4 j + k is entry (2048 k + a, 2048 j + q) of the matrix.
theorem m_read (j k : Fin 4) (a q : Fin 2048) :
    (iblk0 V c 1 (pt j k) : S2048x2048.Idx → EReal) (ix2 a q)
      = (V c main_call0_v18 : S8192x8192.Idx → EReal) (ix2 (Cert.Spec.blk k a) (Cert.Spec.blk j q)) := by
  obtain ⟨-, -, h0, h1, -⟩ := idx j k
  refine congrArg (V c main_call0_v18 : S8192x8192.Idx → EReal) (Shape.idx_ext₂ ?_ ?_)
  · show win0_1.index (pt j k) 0 * 2048 + 1 * a.val = 2048 * k.val + a.val; omega
  · show win0_1.index (pt j k) 1 * 2048 + 1 * q.val = 2048 * j.val + q.val; omega

-- Entry (0, q) of window 2's block there is entry (0, 2048 j + q) of the bias row.
theorem b_read (j k : Fin 4) (q : Fin 2048) :
    (iblk0 V c 2 (pt j k) : S1x2048.Idx → EReal) (ix2 0 q) = (V c main_call0_v22 : S1x8192.Idx → EReal) (ix2 0 (Cert.Spec.blk j q)) := by
  obtain ⟨-, -, -, -, h0, h1, -⟩ := idx j k
  refine congrArg (V c main_call0_v22 : S1x8192.Idx → EReal) (Shape.idx_ext₂ ?_ ?_)
  · show win0_2.index (pt j k) 0 * 1 + 1 * 0 = 0; omega
  · show win0_2.index (pt j k) 1 * 2048 + 1 * q.val = 2048 * j.val + q.val; omega

-- Entry (p, q) of window 3's block there is entry (p, 2048 j + q) of the output.
theorem o_emb (j k : Fin 4) (p : Fin 256) (q : Fin 2048) :
    (((cfg0.win 3).blk (pt j k)).view.emb (ix2 p q) : S256x8192.Idx) = ix2 p (Cert.Spec.blk j q) := by
  obtain ⟨-, -, -, -, -, -, h0, h1, -⟩ := idx j k
  refine Shape.idx_ext₂ ?_ ?_
  · show win0_3.index (pt j k) 0 * 256 + 1 * p.val = p.val; omega
  · show win0_3.index (pt j k) 1 * 2048 + 1 * q.val = 2048 * j.val + q.val; omega

-- The dense layer of the bias, matrix and activations arrays, at every entry of the output.
noncomputable def out0 : S256x8192.Idx → EReal := fun i =>
  Cert.Spec.denseRow (fun n' => (V c main_call0_v22 : S1x8192.Idx → EReal) (ix2 0 n'))
    (fun s n' => (V c main_call0_v18 : S8192x8192.Idx → EReal) (ix2 s n'))
    (fun s => (V c main_call0_v19 : S256x8192.Idx → EReal) (ix2 (i 0) s)) (i 1)

-- At a column block's last step the accumulator is the fold of the four steps from zero, so the block stored there is the dense layer's.
theorem flushed_eq (t : Fin cfg0.N) (hf : (cfg0.win 3).flush t = true) :
    (dat0 V c).flushed 3 t = ((cfg0.win 3).blk t).view.read (Elt Ideal) (out0 V c) := by
  have h3 := (flush0_3 t).mp hf
  obtain ⟨j, rfl⟩ : ∃ j : Fin 4, t = pt j 3 :=
    ⟨⟨t.val / 4, by have : t.val < 16 := t.isLt; omega⟩, Fin.ext (by show t.val = 4 * (t.val / 4) + 3; omega)⟩
  funext y
  obtain ⟨p, q, rfl⟩ : ∃ (p : Fin 256) (q : Fin 2048), y = ix2 p q := ⟨y 0, y 1, eq_ix2 y⟩
  rw [View.read_apply, o_emb]
  exact (congrArg (fun z => (k0_pay3 (F := Ideal) z (iblk0 V c 2 (pt j 3)) : S256x2048.Idx → EReal) (ix2 p q))
    (Pipeline.eq_accAt (acc0 V c) 4 _ (fun n h z => k0_pay2 (xcols0 (grid0.coords ⟨n, h⟩) (iblk0 V c 0 ⟨n, h⟩)) z (iblk0 V c 1 ⟨n, h⟩))
      (fun n h h0 => acc0_first V c ⟨n, h⟩ h0) (fun n h h0 => acc0_next V c ⟨n + 1, h⟩ h0) j.val 3 (by omega) (pt j 3).isLt)).trans
    (pays0.dense (V c main_call0_v19) (V c main_call0_v18) (V c main_call0_v22) p (Cert.Spec.blk j q) q
      (fun k => xcols0 (grid0.coords (pt j k)) (iblk0 V c 0 (pt j k))) (fun k => iblk0 V c 1 (pt j k)) _
      (x_read V c j · p) (m_read V c j · · q) (b_read V c j 3 q))

-- Every entry of the output lies in the block stored at its column block's last step: the output ends at the dense layer.
theorem final0 : (dat0 V c).arrAt 3 cfg0.N = out0 V c :=
  (dat0 V c).arrAt_eq_of_cover 3 (out0 V c) (flushed_eq V c) fun i => by
    obtain ⟨p, j, q, rfl⟩ := exists_blk i
    exact ⟨pt j 3, (flush0_3 _).mpr (by show (4 * j.val + 3) % 4 = 3; omega), o_emb j 3 p q ▸ View.emb_mem_set _ _⟩

end Out0

theorem out0_eq [Cert.KernelIdeal.Facts] (V : (c : Dev nD) → (b : Ref sig .tc) → Buf (Elt Ideal) ((c : Thread nD τ).loc b)) (c : Dev nD) (p : Fin 256) (n : Fin 8192) :
    ((dat0 (F := Ideal) V c).arrAt 3 cfg0.N : S256x8192.Idx → EReal) (ix2 p n)
      = Cert.Spec.denseRow (fun n' => (V c main_call0_v22 : S1x8192.Idx → EReal) (ix2 0 n')) (fun s n' => (V c main_call0_v18 : S8192x8192.Idx → EReal) (ix2 s n')) (fun s => (V c main_call0_v19 : S256x8192.Idx → EReal) (ix2 p s)) n :=
  congrFun (Out0.final0 V c) (ix2 p n)

end Cert.KernelIdeal.Mm
-- ==== Proof.K1Value.lean ====
import proofs.«427408_j57458072485900_3_alg».proof.Proof.K1Data
import proofs.«427408_j57458072485900_3_alg».proof.Proof.PayValue

namespace Cert.KernelIdeal.Mm

open Gen Idealize.ShloMosaic Idealize.ShloMosaic.ValueIdx
open Idealize.ShloMosaic.TcCoe Idealize.SL.Sem PayValue

variable (V : (c : Dev nD) → (b : Ref sig .tc) → Buf (Elt Ideal) ((c : Thread nD τ).loc b)) (c : Dev nD)

namespace Out1

-- Point 4 j + k of the sixteen: column block j, reduction step k.
def pt (j k : Fin 4) : Fin cfg1.N := ⟨4 * j.val + k.val, by have := j.isLt; have := k.isLt; show _ < 16; omega⟩

-- At point 4 j + k: the windows' block indices, and the offsets of the columns multiplied there.
theorem idx : ∀ j k : Fin 4,
    win1_0.index (pt j k) 0 = 0 ∧ win1_0.index (pt j k) 1 = 0
    ∧ win1_1.index (pt j k) 0 = k.val ∧ win1_1.index (pt j k) 1 = j.val
    ∧ win1_2.index (pt j k) 0 = 0 ∧ win1_2.index (pt j k) 1 = j.val
    ∧ win1_3.index (pt j k) 0 = 0 ∧ win1_3.index (pt j k) 1 = j.val
    ∧ k1_off1 (grid1.coords (pt j k)) 0 = 0 ∧ k1_off1 (grid1.coords (pt j k)) 1 = 2048 * k.val := by
  decide +kernel

-- Entry (p, a) of the columns multiplied at step k is entry (p, 2048 k + a) of the activations.
theorem x_read (j k : Fin 4) (p : Fin 256) (a : Fin 2048) :
    (xcols1 (grid1.coords (pt j k)) (iblk1 V c 0 (pt j k)) : S256x2048.Idx → EReal) (ix2 p a)
      = (V c main_call0_v23 : S256x8192.Idx → EReal) (ix2 p (Cert.Spec.blk k a)) := by
  obtain ⟨h0, h1, -, -, -, -, -, -, o0, o1⟩ := idx j k
  refine congrArg (V c main_call0_v23 : S256x8192.Idx → EReal) (Shape.idx_ext₂ ?_ ?_)
  · show win1_0.index (pt j k) 0 * 256 + 1 * (k1_off1 (grid1.coords (pt j k)) 0 + 1 * p.val) = p.val; omega
  · show win1_0.index (pt j k) 1 * 8192 + 1 * (k1_off1 (grid1.coords (pt j k)) 1 + 1 * a.val) = 2048 * k.val + a.val; omega

-- Entry (a, q) of window 1's block at point 4 j + k is entry (2048 k + a, 2048 j + q) of the matrix.
theorem m_read (j k : Fin 4) (a q : Fin 2048) :
    (iblk1 V c 1 (pt j k) : S2048x2048.Idx → EReal) (ix2 a q)
      = (V c main_call0_v42 : S8192x8192.Idx → EReal) (ix2 (Cert.Spec.blk k a) (Cert.Spec.blk j q)) := by
  obtain ⟨-, -, h0, h1, -⟩ := idx j k
  refine congrArg (V c main_call0_v42 : S8192x8192.Idx → EReal) (Shape.idx_ext₂ ?_ ?_)
  · show win1_1.index (pt j k) 0 * 2048 + 1 * a.val = 2048 * k.val + a.val; omega
  · show win1_1.index (pt j k) 1 * 2048 + 1 * q.val = 2048 * j.val + q.val; omega

-- Entry (0, q) of window 2's block there is entry (0, 2048 j + q) of the bias row.
theorem b_read (j k : Fin 4) (q : Fin 2048) :
    (iblk1 V c 2 (pt j k) : S1x2048.Idx → EReal) (ix2 0 q) = (V c main_call0_v45 : S1x8192.Idx → EReal) (ix2 0 (Cert.Spec.blk j q)) := by
  obtain ⟨-, -, -, -, h0, h1, -⟩ := idx j k
  refine congrArg (V c main_call0_v45 : S1x8192.Idx → EReal) (Shape.idx_ext₂ ?_ ?_)
  · show win1_2.index (pt j k) 0 * 1 + 1 * 0 = 0; omega
  · show win1_2.index (pt j k) 1 * 2048 + 1 * q.val = 2048 * j.val + q.val; omega

-- Entry (p, q) of window 3's block there is entry (p, 2048 j + q) of the output.
theorem o_emb (j k : Fin 4) (p : Fin 256) (q : Fin 2048) :
    (((cfg1.win 3).blk (pt j k)).view.emb (ix2 p q) : S256x8192.Idx) = ix2 p (Cert.Spec.blk j q) := by
  obtain ⟨-, -, -, -, -, -, h0, h1, -⟩ := idx j k
  refine Shape.idx_ext₂ ?_ ?_
  · show win1_3.index (pt j k) 0 * 256 + 1 * p.val = p.val; omega
  · show win1_3.index (pt j k) 1 * 2048 + 1 * q.val = 2048 * j.val + q.val; omega

-- The dense layer of the bias, matrix and activations arrays, at every entry of the output.
noncomputable def out1 : S256x8192.Idx → EReal := fun i =>
  Cert.Spec.denseRow (fun n' => (V c main_call0_v45 : S1x8192.Idx → EReal) (ix2 0 n'))
    (fun s n' => (V c main_call0_v42 : S8192x8192.Idx → EReal) (ix2 s n'))
    (fun s => (V c main_call0_v23 : S256x8192.Idx → EReal) (ix2 (i 0) s)) (i 1)

-- At a column block's last step the accumulator is the fold of the four steps from zero, so the block stored there is the dense layer's.
theorem flushed_eq (t : Fin cfg1.N) (hf : (cfg1.win 3).flush t = true) :
    (dat1 V c).flushed 3 t = ((cfg1.win 3).blk t).view.read (Elt Ideal) (out1 V c) := by
  have h3 := (flush1_3 t).mp hf
  obtain ⟨j, rfl⟩ : ∃ j : Fin 4, t = pt j 3 :=
    ⟨⟨t.val / 4, by have : t.val < 16 := t.isLt; omega⟩, Fin.ext (by show t.val = 4 * (t.val / 4) + 3; omega)⟩
  funext y
  obtain ⟨p, q, rfl⟩ : ∃ (p : Fin 256) (q : Fin 2048), y = ix2 p q := ⟨y 0, y 1, eq_ix2 y⟩
  rw [View.read_apply, o_emb]
  exact (congrArg (fun z => (k1_pay3 (F := Ideal) z (iblk1 V c 2 (pt j 3)) : S256x2048.Idx → EReal) (ix2 p q))
    (Pipeline.eq_accAt (acc1 V c) 4 _ (fun n h z => k1_pay2 (xcols1 (grid1.coords ⟨n, h⟩) (iblk1 V c 0 ⟨n, h⟩)) z (iblk1 V c 1 ⟨n, h⟩))
      (fun n h h0 => acc1_first V c ⟨n, h⟩ h0) (fun n h h0 => acc1_next V c ⟨n + 1, h⟩ h0) j.val 3 (by omega) (pt j 3).isLt)).trans
    (pays1.dense (V c main_call0_v23) (V c main_call0_v42) (V c main_call0_v45) p (Cert.Spec.blk j q) q
      (fun k => xcols1 (grid1.coords (pt j k)) (iblk1 V c 0 (pt j k))) (fun k => iblk1 V c 1 (pt j k)) _
      (x_read V c j · p) (m_read V c j · · q) (b_read V c j 3 q))

-- Every entry of the output lies in the block stored at its column block's last step: the output ends at the dense layer.
theorem final1 : (dat1 V c).arrAt 3 cfg1.N = out1 V c :=
  (dat1 V c).arrAt_eq_of_cover 3 (out1 V c) (flushed_eq V c) fun i => by
    obtain ⟨p, j, q, rfl⟩ := exists_blk i
    exact ⟨pt j 3, (flush1_3 _).mpr (by show (4 * j.val + 3) % 4 = 3; omega), o_emb j 3 p q ▸ View.emb_mem_set _ _⟩

end Out1

theorem out1_eq [Cert.KernelIdeal.Facts] (V : (c : Dev nD) → (b : Ref sig .tc) → Buf (Elt Ideal) ((c : Thread nD τ).loc b)) (c : Dev nD) (p : Fin 256) (n : Fin 8192) :
    ((dat1 (F := Ideal) V c).arrAt 3 cfg1.N : S256x8192.Idx → EReal) (ix2 p n)
      = Cert.Spec.denseRow (fun n' => (V c main_call0_v45 : S1x8192.Idx → EReal) (ix2 0 n')) (fun s n' => (V c main_call0_v42 : S8192x8192.Idx → EReal) (ix2 s n')) (fun s => (V c main_call0_v23 : S256x8192.Idx → EReal) (ix2 p s)) n :=
  congrFun (Out1.final1 V c) (ix2 p n)

end Cert.KernelIdeal.Mm
-- ==== Proof.K2Value.lean ====
import proofs.«427408_j57458072485900_3_alg».proof.Proof.K2Data
import proofs.«427408_j57458072485900_3_alg».proof.Proof.PayValue

namespace Cert.KernelIdeal.Mm

open Gen Idealize.ShloMosaic Idealize.ShloMosaic.ValueIdx
open Idealize.ShloMosaic.TcCoe Idealize.SL.Sem PayValue

variable (V : (c : Dev nD) → (b : Ref sig .tc) → Buf (Elt Ideal) ((c : Thread nD τ).loc b)) (c : Dev nD)

namespace Out2

-- Point 4 j + k of the sixteen: column block j, reduction step k.
def pt (j k : Fin 4) : Fin cfg2.N := ⟨4 * j.val + k.val, by have := j.isLt; have := k.isLt; show _ < 16; omega⟩

-- At point 4 j + k: the windows' block indices, and the offsets of the columns multiplied there.
theorem idx : ∀ j k : Fin 4,
    win2_0.index (pt j k) 0 = 0 ∧ win2_0.index (pt j k) 1 = 0
    ∧ win2_1.index (pt j k) 0 = k.val ∧ win2_1.index (pt j k) 1 = j.val
    ∧ win2_2.index (pt j k) 0 = 0 ∧ win2_2.index (pt j k) 1 = j.val
    ∧ win2_3.index (pt j k) 0 = 0 ∧ win2_3.index (pt j k) 1 = j.val
    ∧ k2_off1 (grid2.coords (pt j k)) 0 = 0 ∧ k2_off1 (grid2.coords (pt j k)) 1 = 2048 * k.val := by
  decide +kernel

-- Entry (p, a) of the columns multiplied at step k is entry (p, 2048 k + a) of the activations.
theorem x_read (j k : Fin 4) (p : Fin 256) (a : Fin 2048) :
    (xcols2 (grid2.coords (pt j k)) (iblk2 V c 0 (pt j k)) : S256x2048.Idx → EReal) (ix2 p a)
      = (V c main_call0_v46 : S256x8192.Idx → EReal) (ix2 p (Cert.Spec.blk k a)) := by
  obtain ⟨h0, h1, -, -, -, -, -, -, o0, o1⟩ := idx j k
  refine congrArg (V c main_call0_v46 : S256x8192.Idx → EReal) (Shape.idx_ext₂ ?_ ?_)
  · show win2_0.index (pt j k) 0 * 256 + 1 * (k2_off1 (grid2.coords (pt j k)) 0 + 1 * p.val) = p.val; omega
  · show win2_0.index (pt j k) 1 * 8192 + 1 * (k2_off1 (grid2.coords (pt j k)) 1 + 1 * a.val) = 2048 * k.val + a.val; omega

-- Entry (a, q) of window 1's block at point 4 j + k is entry (2048 k + a, 2048 j + q) of the matrix.
theorem m_read (j k : Fin 4) (a q : Fin 2048) :
    (iblk2 V c 1 (pt j k) : S2048x2048.Idx → EReal) (ix2 a q)
      = (V c main_call0_v65 : S8192x8192.Idx → EReal) (ix2 (Cert.Spec.blk k a) (Cert.Spec.blk j q)) := by
  obtain ⟨-, -, h0, h1, -⟩ := idx j k
  refine congrArg (V c main_call0_v65 : S8192x8192.Idx → EReal) (Shape.idx_ext₂ ?_ ?_)
  · show win2_1.index (pt j k) 0 * 2048 + 1 * a.val = 2048 * k.val + a.val; omega
  · show win2_1.index (pt j k) 1 * 2048 + 1 * q.val = 2048 * j.val + q.val; omega

-- Entry (0, q) of window 2's block there is entry (0, 2048 j + q) of the bias row.
theorem b_read (j k : Fin 4) (q : Fin 2048) :
    (iblk2 V c 2 (pt j k) : S1x2048.Idx → EReal) (ix2 0 q) = (V c main_call0_v68 : S1x8192.Idx → EReal) (ix2 0 (Cert.Spec.blk j q)) := by
  obtain ⟨-, -, -, -, h0, h1, -⟩ := idx j k
  refine congrArg (V c main_call0_v68 : S1x8192.Idx → EReal) (Shape.idx_ext₂ ?_ ?_)
  · show win2_2.index (pt j k) 0 * 1 + 1 * 0 = 0; omega
  · show win2_2.index (pt j k) 1 * 2048 + 1 * q.val = 2048 * j.val + q.val; omega

-- Entry (p, q) of window 3's block there is entry (p, 2048 j + q) of the output.
theorem o_emb (j k : Fin 4) (p : Fin 256) (q : Fin 2048) :
    (((cfg2.win 3).blk (pt j k)).view.emb (ix2 p q) : S256x8192.Idx) = ix2 p (Cert.Spec.blk j q) := by
  obtain ⟨-, -, -, -, -, -, h0, h1, -⟩ := idx j k
  refine Shape.idx_ext₂ ?_ ?_
  · show win2_3.index (pt j k) 0 * 256 + 1 * p.val = p.val; omega
  · show win2_3.index (pt j k) 1 * 2048 + 1 * q.val = 2048 * j.val + q.val; omega

-- The dense layer of the bias, matrix and activations arrays, at every entry of the output.
noncomputable def out2 : S256x8192.Idx → EReal := fun i =>
  Cert.Spec.denseRow (fun n' => (V c main_call0_v68 : S1x8192.Idx → EReal) (ix2 0 n'))
    (fun s n' => (V c main_call0_v65 : S8192x8192.Idx → EReal) (ix2 s n'))
    (fun s => (V c main_call0_v46 : S256x8192.Idx → EReal) (ix2 (i 0) s)) (i 1)

-- At a column block's last step the accumulator is the fold of the four steps from zero, so the block stored there is the dense layer's.
theorem flushed_eq (t : Fin cfg2.N) (hf : (cfg2.win 3).flush t = true) :
    (dat2 V c).flushed 3 t = ((cfg2.win 3).blk t).view.read (Elt Ideal) (out2 V c) := by
  have h3 := (flush2_3 t).mp hf
  obtain ⟨j, rfl⟩ : ∃ j : Fin 4, t = pt j 3 :=
    ⟨⟨t.val / 4, by have : t.val < 16 := t.isLt; omega⟩, Fin.ext (by show t.val = 4 * (t.val / 4) + 3; omega)⟩
  funext y
  obtain ⟨p, q, rfl⟩ : ∃ (p : Fin 256) (q : Fin 2048), y = ix2 p q := ⟨y 0, y 1, eq_ix2 y⟩
  rw [View.read_apply, o_emb]
  exact (congrArg (fun z => (k2_pay3 (F := Ideal) z (iblk2 V c 2 (pt j 3)) : S256x2048.Idx → EReal) (ix2 p q))
    (Pipeline.eq_accAt (acc2 V c) 4 _ (fun n h z => k2_pay2 (xcols2 (grid2.coords ⟨n, h⟩) (iblk2 V c 0 ⟨n, h⟩)) z (iblk2 V c 1 ⟨n, h⟩))
      (fun n h h0 => acc2_first V c ⟨n, h⟩ h0) (fun n h h0 => acc2_next V c ⟨n + 1, h⟩ h0) j.val 3 (by omega) (pt j 3).isLt)).trans
    (pays2.dense (V c main_call0_v46) (V c main_call0_v65) (V c main_call0_v68) p (Cert.Spec.blk j q) q
      (fun k => xcols2 (grid2.coords (pt j k)) (iblk2 V c 0 (pt j k))) (fun k => iblk2 V c 1 (pt j k)) _
      (x_read V c j · p) (m_read V c j · · q) (b_read V c j 3 q))

-- Every entry of the output lies in the block stored at its column block's last step: the output ends at the dense layer.
theorem final2 : (dat2 V c).arrAt 3 cfg2.N = out2 V c :=
  (dat2 V c).arrAt_eq_of_cover 3 (out2 V c) (flushed_eq V c) fun i => by
    obtain ⟨p, j, q, rfl⟩ := exists_blk i
    exact ⟨pt j 3, (flush2_3 _).mpr (by show (4 * j.val + 3) % 4 = 3; omega), o_emb j 3 p q ▸ View.emb_mem_set _ _⟩

end Out2

theorem out2_eq [Cert.KernelIdeal.Facts] (V : (c : Dev nD) → (b : Ref sig .tc) → Buf (Elt Ideal) ((c : Thread nD τ).loc b)) (c : Dev nD) (p : Fin 256) (n : Fin 8192) :
    ((dat2 (F := Ideal) V c).arrAt 3 cfg2.N : S256x8192.Idx → EReal) (ix2 p n)
      = Cert.Spec.denseRow (fun n' => (V c main_call0_v68 : S1x8192.Idx → EReal) (ix2 0 n')) (fun s n' => (V c main_call0_v65 : S8192x8192.Idx → EReal) (ix2 s n')) (fun s => (V c main_call0_v46 : S256x8192.Idx → EReal) (ix2 p s)) n :=
  congrFun (Out2.final2 V c) (ix2 p n)

end Cert.KernelIdeal.Mm
-- ==== Proof.K3Value.lean ====
import proofs.«427408_j57458072485900_3_alg».proof.Proof.K3Data
import proofs.«427408_j57458072485900_3_alg».proof.Proof.PayValue

namespace Cert.KernelIdeal.Mm

open Gen Idealize.ShloMosaic Idealize.ShloMosaic.ValueIdx
open Idealize.ShloMosaic.TcCoe Idealize.SL.Sem PayValue

variable (V : (c : Dev nD) → (b : Ref sig .tc) → Buf (Elt Ideal) ((c : Thread nD τ).loc b)) (c : Dev nD)

namespace Out3

-- Point 4 j + k of the sixteen: column block j, reduction step k.
def pt (j k : Fin 4) : Fin cfg3.N := ⟨4 * j.val + k.val, by have := j.isLt; have := k.isLt; show _ < 16; omega⟩

-- At point 4 j + k: the windows' block indices, and the offsets of the columns multiplied there.
theorem idx : ∀ j k : Fin 4,
    win3_0.index (pt j k) 0 = 0 ∧ win3_0.index (pt j k) 1 = 0
    ∧ win3_1.index (pt j k) 0 = k.val ∧ win3_1.index (pt j k) 1 = j.val
    ∧ win3_2.index (pt j k) 0 = 0 ∧ win3_2.index (pt j k) 1 = j.val
    ∧ win3_3.index (pt j k) 0 = 0 ∧ win3_3.index (pt j k) 1 = j.val
    ∧ k3_off1 (grid3.coords (pt j k)) 0 = 0 ∧ k3_off1 (grid3.coords (pt j k)) 1 = 2048 * k.val := by
  decide +kernel

-- Entry (p, a) of the columns multiplied at step k is entry (p, 2048 k + a) of the activations.
theorem x_read (j k : Fin 4) (p : Fin 256) (a : Fin 2048) :
    (xcols3 (grid3.coords (pt j k)) (iblk3 V c 0 (pt j k)) : S256x2048.Idx → EReal) (ix2 p a)
      = (V c main_call0_v69 : S256x8192.Idx → EReal) (ix2 p (Cert.Spec.blk k a)) := by
  obtain ⟨h0, h1, -, -, -, -, -, -, o0, o1⟩ := idx j k
  refine congrArg (V c main_call0_v69 : S256x8192.Idx → EReal) (Shape.idx_ext₂ ?_ ?_)
  · show win3_0.index (pt j k) 0 * 256 + 1 * (k3_off1 (grid3.coords (pt j k)) 0 + 1 * p.val) = p.val; omega
  · show win3_0.index (pt j k) 1 * 8192 + 1 * (k3_off1 (grid3.coords (pt j k)) 1 + 1 * a.val) = 2048 * k.val + a.val; omega

-- Entry (a, q) of window 1's block at point 4 j + k is entry (2048 k + a, 2048 j + q) of the matrix.
theorem m_read (j k : Fin 4) (a q : Fin 2048) :
    (iblk3 V c 1 (pt j k) : S2048x2048.Idx → EReal) (ix2 a q)
      = (V c main_call0_v88 : S8192x8192.Idx → EReal) (ix2 (Cert.Spec.blk k a) (Cert.Spec.blk j q)) := by
  obtain ⟨-, -, h0, h1, -⟩ := idx j k
  refine congrArg (V c main_call0_v88 : S8192x8192.Idx → EReal) (Shape.idx_ext₂ ?_ ?_)
  · show win3_1.index (pt j k) 0 * 2048 + 1 * a.val = 2048 * k.val + a.val; omega
  · show win3_1.index (pt j k) 1 * 2048 + 1 * q.val = 2048 * j.val + q.val; omega

-- Entry (0, q) of window 2's block there is entry (0, 2048 j + q) of the bias row.
theorem b_read (j k : Fin 4) (q : Fin 2048) :
    (iblk3 V c 2 (pt j k) : S1x2048.Idx → EReal) (ix2 0 q) = (V c main_call0_v91 : S1x8192.Idx → EReal) (ix2 0 (Cert.Spec.blk j q)) := by
  obtain ⟨-, -, -, -, h0, h1, -⟩ := idx j k
  refine congrArg (V c main_call0_v91 : S1x8192.Idx → EReal) (Shape.idx_ext₂ ?_ ?_)
  · show win3_2.index (pt j k) 0 * 1 + 1 * 0 = 0; omega
  · show win3_2.index (pt j k) 1 * 2048 + 1 * q.val = 2048 * j.val + q.val; omega

-- Entry (p, q) of window 3's block there is entry (p, 2048 j + q) of the output.
theorem o_emb (j k : Fin 4) (p : Fin 256) (q : Fin 2048) :
    (((cfg3.win 3).blk (pt j k)).view.emb (ix2 p q) : S256x8192.Idx) = ix2 p (Cert.Spec.blk j q) := by
  obtain ⟨-, -, -, -, -, -, h0, h1, -⟩ := idx j k
  refine Shape.idx_ext₂ ?_ ?_
  · show win3_3.index (pt j k) 0 * 256 + 1 * p.val = p.val; omega
  · show win3_3.index (pt j k) 1 * 2048 + 1 * q.val = 2048 * j.val + q.val; omega

-- The dense layer of the bias, matrix and activations arrays, at every entry of the output.
noncomputable def out3 : S256x8192.Idx → EReal := fun i =>
  Cert.Spec.denseRow (fun n' => (V c main_call0_v91 : S1x8192.Idx → EReal) (ix2 0 n'))
    (fun s n' => (V c main_call0_v88 : S8192x8192.Idx → EReal) (ix2 s n'))
    (fun s => (V c main_call0_v69 : S256x8192.Idx → EReal) (ix2 (i 0) s)) (i 1)

-- At a column block's last step the accumulator is the fold of the four steps from zero, so the block stored there is the dense layer's.
theorem flushed_eq (t : Fin cfg3.N) (hf : (cfg3.win 3).flush t = true) :
    (dat3 V c).flushed 3 t = ((cfg3.win 3).blk t).view.read (Elt Ideal) (out3 V c) := by
  have h3 := (flush3_3 t).mp hf
  obtain ⟨j, rfl⟩ : ∃ j : Fin 4, t = pt j 3 :=
    ⟨⟨t.val / 4, by have : t.val < 16 := t.isLt; omega⟩, Fin.ext (by show t.val = 4 * (t.val / 4) + 3; omega)⟩
  funext y
  obtain ⟨p, q, rfl⟩ : ∃ (p : Fin 256) (q : Fin 2048), y = ix2 p q := ⟨y 0, y 1, eq_ix2 y⟩
  rw [View.read_apply, o_emb]
  exact (congrArg (fun z => (k3_pay3 (F := Ideal) z (iblk3 V c 2 (pt j 3)) : S256x2048.Idx → EReal) (ix2 p q))
    (Pipeline.eq_accAt (acc3 V c) 4 _ (fun n h z => k3_pay2 (xcols3 (grid3.coords ⟨n, h⟩) (iblk3 V c 0 ⟨n, h⟩)) z (iblk3 V c 1 ⟨n, h⟩))
      (fun n h h0 => acc3_first V c ⟨n, h⟩ h0) (fun n h h0 => acc3_next V c ⟨n + 1, h⟩ h0) j.val 3 (by omega) (pt j 3).isLt)).trans
    (pays3.dense (V c main_call0_v69) (V c main_call0_v88) (V c main_call0_v91) p (Cert.Spec.blk j q) q
      (fun k => xcols3 (grid3.coords (pt j k)) (iblk3 V c 0 (pt j k))) (fun k => iblk3 V c 1 (pt j k)) _
      (x_read V c j · p) (m_read V c j · · q) (b_read V c j 3 q))

-- Every entry of the output lies in the block stored at its column block's last step: the output ends at the dense layer.
theorem final3 : (dat3 V c).arrAt 3 cfg3.N = out3 V c :=
  (dat3 V c).arrAt_eq_of_cover 3 (out3 V c) (flushed_eq V c) fun i => by
    obtain ⟨p, j, q, rfl⟩ := exists_blk i
    exact ⟨pt j 3, (flush3_3 _).mpr (by show (4 * j.val + 3) % 4 = 3; omega), o_emb j 3 p q ▸ View.emb_mem_set _ _⟩

end Out3

theorem out3_eq [Cert.KernelIdeal.Facts] (V : (c : Dev nD) → (b : Ref sig .tc) → Buf (Elt Ideal) ((c : Thread nD τ).loc b)) (c : Dev nD) (p : Fin 256) (n : Fin 8192) :
    ((dat3 (F := Ideal) V c).arrAt 3 cfg3.N : S256x8192.Idx → EReal) (ix2 p n)
      = Cert.Spec.denseRow (fun n' => (V c main_call0_v91 : S1x8192.Idx → EReal) (ix2 0 n')) (fun s n' => (V c main_call0_v88 : S8192x8192.Idx → EReal) (ix2 s n')) (fun s => (V c main_call0_v69 : S256x8192.Idx → EReal) (ix2 p s)) n :=
  congrFun (Out3.final3 V c) (ix2 p n)

end Cert.KernelIdeal.Mm
-- ==== Proof.Net.lean ====
import proofs.«427408_j57458072485900_3_alg».proof.Proof.Spec
import Idealize.ShloMosaic.PureOps.Ideal
import Idealize.ShloMosaic.Lib.ValueIdx
import Idealize.ShloMosaic.Lib.ValueLayout
import Idealize.ShloMosaic.Lib.Pipeline.Value

noncomputable section

namespace Cert.Net

open Idealize.ShloMosaic Idealize.ShloMosaic.ValueIdx

abbrev SX : Shape := ⟨2, ![256, 8192]⟩
abbrev SE : Shape := ⟨2, ![4, 262144]⟩
abbrev SB : Shape := ⟨2, ![4, 8192]⟩

def neuron (v : BitVec 32) : Fin 8192 := ⟨v.toNat % 8192, Nat.mod_lt _ (by decide)⟩

def nodes (idx : SE.Idx → BitVec 32) (l : Fin 4) : Fin 262144 → Fin 8192 := fun e => neuron (idx (ix2 l e))
def wts (w : SE.Idx → EReal) (l : Fin 4) : Fin 262144 → EReal := fun e => w (ix2 l e)
def bs (b : SB.Idx → EReal) (l : Fin 4) : Fin 8192 → EReal := fun n => b (ix2 l n)
def row (h : SX.Idx → EReal) (p : Fin 256) : Fin 8192 → EReal := fun s => h (ix2 p s)

variable (w : SE.Idx → EReal) (b : SB.Idx → EReal) (src dst : SE.Idx → BitVec 32)

def layer (l : Fin 4) (h : SX.Idx → EReal) : SX.Idx → EReal :=
  fun i => Spec.layerRow (nodes src l) (nodes dst l) (wts w l) (bs b l) (row h ⟨(i 0).val, idx2_lt0 i⟩) ⟨(i 1).val, idx2_lt1 i⟩

def net (x : SX.Idx → EReal) : SX.Idx → EReal :=
  layer w b src dst 3 (layer w b src dst 2 (layer w b src dst 1 (layer w b src dst 0 x)))

theorem layer_apply (l : Fin 4) (h : SX.Idx → EReal) (p : Fin 256) (n : Fin 8192) :
    layer w b src dst l h (ix2 p n) = Spec.layerRow (nodes src l) (nodes dst l) (wts w l) (bs b l) (row h p) n := rfl

theorem layer_isReal (hw : Spec.IsReal w) (hb : Spec.IsReal b) (l : Fin 4) (h : SX.Idx → EReal) (hh : Spec.IsReal h) :
    Spec.IsReal (layer w b src dst l h) := fun i =>
  Spec.layerRow_isReal _ _ _ _ (fun _ => hw _) (fun _ => hb _) _ (fun _ => hh _) _

theorem neuron_of_lt (v : BitVec 32) (h : v.toNat < 8192) : neuron v = ⟨v.toNat, h⟩ :=
  Fin.ext (Nat.mod_eq_of_lt h)

section Layout
variable {α : Type} {n : Nat}

theorem row_apply (l : Fin 4) (X : (⟨2, ![4, n]⟩ : Shape).Idx → α) (h : (⟨2, ![4, n]⟩ : Shape).Slices ![l.val, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![l.val, 0] X h) hc (ix1 e) = X (ix2 l e) := by
  rw [shapeCast_1a_a_apply, slice2_axis0_apply l.val X h 0 e l rfl]

theorem col_apply (h : (⟨1, ![n]⟩ : Shape).BroadcastsInDim ⟨2, ![n, 1]⟩ ![0]) (v : (⟨1, ![n]⟩ : Shape).Idx → α)
    (i : (⟨2, ![n, 1]⟩ : Shape).Idx) : broadcastInDim ⟨2, ![n, 1]⟩ ![0] h v i = v (ix1 (i 0)) :=
  broadcastInDim_apply _ h v i _ fun a => by
    obtain rfl : a = 0 := Subsingleton.elim _ _
    have := idx2_lt0 i
    show (i 0).val = if n = 1 then 0 else (i 0).val
    split <;> omega

end Layout

-- An update lands at the index whose every coordinate is its start plus its window coordinate.
theorem resultIdx_eq {s si u : Shape} (d : ScatterDims s si u) {k : Nat} (j : u.Idx) (idx : IVec si k) (f : s.Idx)
    (h : ∀ a, d.start j idx a + d.window j a = ((f a).val : Int)) : d.resultIdx? j idx = some f := by
  unfold ScatterDims.resultIdx?
  rw [dif_pos fun a => by rw [h a]; exact ⟨Int.natCast_nonneg _, Int.ofNat_lt.2 (f a).isLt⟩]
  exact congrArg some (funext fun a => Fin.ext (by show (d.start j idx a + d.window j a).toNat = _; rw [h a]; rfl))

end Cert.Net

end
-- ==== Proof.HostValue.lean ====
import proofs.«427408_j57458072485900_3_alg».proof.Proof.Gen.KernelIdeal.Launch
import proofs.«427408_j57458072485900_3_alg».proof.Proof.Net
import Idealize.ShloMosaic.Lib.ValueIdx
import Idealize.ShloMosaic.Lib.ValueIdxRank1
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.HostValue

open Cert.KernelIdeal Cert.KernelIdeal.Gen Idealize.ShloMosaic Idealize.ShloMosaic.ValueIdx
open Finset

def posWord (a b : BitVec 32) : BitVec 32 :=
  Scalar.select (IntOp.cmpi .slt (IntOp.addi (IntOp.muli a 8192#32) b) 0#32)
    (IntOp.addi (IntOp.addi (IntOp.muli a 8192#32) b) 67108864#32) (IntOp.addi (IntOp.muli a 8192#32) b)

-- With both words below 8192 the flat position neither wraps nor is negative.
theorem posWord_toInt (a b : BitVec 32) (ha : a.toNat < 8192) (hb : b.toNat < 8192) :
    (posWord a b).toInt = ((a.toNat * 8192 + b.toNat : Nat) : Int) := by
  have hflat : (IntOp.addi (IntOp.muli a 8192#32) b).toNat = a.toNat * 8192 + b.toNat := by
    unfold IntOp.addi IntOp.muli
    rw [BitVec.toNat_add, BitVec.toNat_mul]
    show (a.toNat * 8192 % 2 ^ 32 + b.toNat) % 2 ^ 32 = _
    omega
  unfold posWord
  rw [eq_zero_of_ne_one (mt (StableHlo.Predicate.slt_iff_toNat (by omega) (by decide)).1 (Nat.not_lt_zero _)),
    select_zero, StableHlo.Predicate.toInt_eq_toNat_of_lt (by omega), hflat]

def rowOf {α : Type} (l : Nat) (X : S4x262144.Idx → α) (h : S4x262144.Slices ![l, 0] S1x262144) : S262144.Idx → α :=
  shapeCast S262144 (extractStridedSlice S1x262144 ![l, 0] X h) Gen.shapeCasts_S1x262144_S262144

theorem pos_lt {a b : Nat} (ha : a < 8192) (hb : b < 8192) : a * 8192 + b < 67108864 := by omega

theorem pos_eq_iff {a b s n : Nat} (ha : a < 8192) (hb : b < 8192) (hs : s < 8192) (hn : n < 8192) :
    a * 8192 + b = s * 8192 + n ↔ a = s ∧ b = n := by omega

theorem rowOf_apply {α : Type} (l : Fin 4) (X : S4x262144.Idx → α) (h : S4x262144.Slices ![l.val, 0] S1x262144)
    (e : Fin 262144) : rowOf l.val X h (ix1 e) = X (ix2 l e) :=
  Cert.Net.row_apply l X h _ e

def posOf (src dst : IVec S262144 32) : IVec S262144 32 := fun i => posWord (src i) (dst i)

def biasOf {α : Type} (l : Nat) (B : S4x8192.Idx → α) (h : S4x8192.Slices ![l, 0] S1x8192) : S1x8192.Idx → α :=
  shapeCast S1x8192 (shapeCast S8192 (extractStridedSlice S1x8192 ![l, 0] B h) Gen.shapeCasts_S1x8192_S8192)
    Gen.shapeCasts_S8192_S1x8192

theorem biasOf_apply {α : Type} (l : Fin 4) (B : S4x8192.Idx → α) (h : S4x8192.Slices ![l.val, 0] S1x8192)
    (u : Fin 1) (n : Fin 8192) : biasOf l.val B h (ix2 u n) = B (ix2 l n) :=
  (shapeCast_a_1a_apply _ _ u n).trans (Cert.Net.row_apply l B h _ n)

variable [Cert.KernelIdeal.Facts]

abbrev SD := scatter_S67108864_S262144x1_S262144_n_0_0_1

-- Update `e` lands at its position word, so position `k` collects the updates whose word is `k`.
theorem scatterAdd_apply {w : Nat} (x : S67108864.Idx → EReal) (idx : IVec S262144x1 w) (upd : S262144.Idx → EReal)
    (pos : Fin 262144 → Fin 67108864) (hpos : ∀ e, (idx (ix2 e (0 : Fin 1))).toInt = ((pos e).val : Int)) (k : Fin 67108864) :
    Ideal.hostScatterAdd SD x idx upd (ix1 k) = x (ix1 k) + ∑ e ∈ univ.filter (fun e => pos e = k), upd (ix1 e) := by
  refine congrArg (x (ix1 k) + ·) ?_
  rw [Finset.sum_filter, Finset.sum_filter]
  refine Fintype.sum_equiv idxEquiv1 _ _ fun j => ?_
  obtain ⟨e, rfl⟩ : ∃ e, j = ix1 e := ⟨j 0, eq_ix1 j⟩
  rw [Cert.Net.resultIdx_eq SD (ix1 e) idx (ix1 (pos e)) fun a => ?_]
  · exact if_congr ⟨fun h => congrFun (Option.some.inj h) 0, fun h => congrArg (fun q => some (ix1 q)) h⟩ rfl rfl
  · obtain rfl : a = 0 := Subsingleton.elim _ _
    have hi : SD.siIdx (ix1 e) ⟨0, Nat.one_pos⟩ = ix2 e (0 : Fin 1) :=
      funext fun b => match b with | ⟨0, _⟩ => rfl | ⟨1, _⟩ => rfl
    show (idx (SD.siIdx (ix1 e) ⟨0, Nat.one_pos⟩)).toInt + ((0 : Nat) : Int) = _
    rw [hi, hpos]
    rfl

def denseOf (src dst : IVec S262144 32) (w : FVec Ideal S262144 .f32) : FVec Ideal S8192x8192 .bf16 :=
  truncf .bf16 (shapeCast S8192x8192
    (Host.scatterAdd SD (broadcastInDim S67108864 ![] Gen.bcast_S_S67108864 (constant (F := Ideal) S_ .f32 0x00000000#32))
      (broadcastInDim S262144x1 ![0] Gen.bcast_S262144_S262144x1_0 (posOf src dst)) w)
    Gen.shapeCasts_S67108864_S8192x8192) Gen.bitsLt_bf16_f32

-- A position `s · 8192 + n` with both parts below 8192 determines `s` and `n`, so the flat array's sums are the dense matrix's.
theorem adj_of_rows (l : Fin 4) (S D : S4x262144.Idx → BitVec 32) (Wt : S4x262144.Idx → EReal)
    (h : S4x262144.Slices ![l.val, 0] S1x262144)
    (hs : ∀ i, (S i).toNat < 8192) (hd : ∀ i, (D i).toNat < 8192) (s n : Fin 8192) :
    denseOf (rowOf l.val S h) (rowOf l.val D h) (rowOf l.val Wt h) (ix2 s n)
      = Cert.Spec.adj (Cert.Net.nodes S l) (Cert.Net.nodes D l) (Cert.Net.wts Wt l) s n := by
  unfold denseOf
  rw [truncf_apply, shapeCast_apply _ _ (ix2 s n) (ix1 (⟨s.val * 8192 + n.val, pos_lt s.isLt n.isLt⟩ : Fin 67108864))
    (by rw [Shape.rowMajor_val_two, Shape.rowMajor_val_one]; rfl)]
  refine (scatterAdd_apply _ _ _
    (fun e => ⟨(S (ix2 l e)).toNat * 8192 + (D (ix2 l e)).toNat, pos_lt (hs _) (hd _)⟩)
    (fun e => ?_) _).trans ?_
  · rw [Cert.Net.col_apply]
    show (posWord (rowOf l.val S h (ix1 e)) (rowOf l.val D h (ix1 e))).toInt = _
    rw [rowOf_apply, rowOf_apply]
    exact posWord_toInt _ _ (hs _) (hd _)
  · refine congrArg₂ (· + ·) Ideal.ofBits_zero_f32
      (Finset.sum_congr (Finset.filter_congr fun e _ => ?_) fun e _ => rowOf_apply l Wt h e)
    show _ ↔ Cert.Net.neuron (S (ix2 l e)) = s ∧ Cert.Net.neuron (D (ix2 l e)) = n
    rw [Cert.Net.neuron_of_lt _ (hs _), Cert.Net.neuron_of_lt _ (hd _)]
    simp only [Fin.ext_iff]
    exact pos_eq_iff (hs _) (hd _) s.isLt n.isLt

theorem adj0 (W : Valuation Cert.KernelIdeal.τ Cert.KernelIdeal.sig (Elt Ideal))
    (hs : ∀ i, ((W (Proc.devRef .tc main_arg3) : S4x262144.Idx → BitVec 32) i).toNat < 8192)
    (hd : ∀ i, ((W (Proc.devRef .tc main_arg4) : S4x262144.Idx → BitVec 32) i).toNat < 8192) (s n : Fin 8192) :
    (StableHlo.after (hostOps0 (F := Ideal)) W (Proc.devRef .tc main_call0_v18) : S8192x8192.Idx → EReal) (ix2 s n)
      = Cert.Spec.adj (Cert.Net.nodes (W (Proc.devRef .tc main_arg3)) 0) (Cert.Net.nodes (W (Proc.devRef .tc main_arg4)) 0)
          (Cert.Net.wts (W (Proc.devRef .tc main_arg1)) 0) s n := by
  refine Eq.trans (congrFun ?_ _)
    (adj_of_rows 0 _ _ (W (Proc.devRef .tc main_arg1)) Gen.slices_S4x262144_S1x262144_0_0 hs hd s n)
  after_results
  rfl

theorem bias0 (W : Valuation Cert.KernelIdeal.τ Cert.KernelIdeal.sig (Elt Ideal)) (n : Fin 8192) :
    (StableHlo.after (hostOps0 (F := Ideal)) W (Proc.devRef .tc main_call0_v22) : S1x8192.Idx → EReal) (ix2 0 n)
      = Cert.Net.bs (W (Proc.devRef .tc main_arg2)) 0 n := by
  refine Eq.trans (congrFun ?_ _) (biasOf_apply 0 (W (Proc.devRef .tc main_arg2)) Gen.slices_S4x8192_S1x8192_0_0 0 n)
  after_results
  rfl

theorem x0 (W : Valuation Cert.KernelIdeal.τ Cert.KernelIdeal.sig (Elt Ideal)) :
    (StableHlo.after (hostOps0 (F := Ideal)) W (Proc.devRef .tc main_call0_v19) : S256x8192.Idx → EReal)
      = W (Proc.devRef .tc main_arg0) := by
  after_results
  rfl

theorem adj1 (W : Valuation Cert.KernelIdeal.τ Cert.KernelIdeal.sig (Elt Ideal))
    (hs : ∀ i, ((W (Proc.devRef .tc main_arg3) : S4x262144.Idx → BitVec 32) i).toNat < 8192)
    (hd : ∀ i, ((W (Proc.devRef .tc main_arg4) : S4x262144.Idx → BitVec 32) i).toNat < 8192) (s n : Fin 8192) :
    (StableHlo.after (hostOps1 (F := Ideal)) W (Proc.devRef .tc main_call0_v42) : S8192x8192.Idx → EReal) (ix2 s n)
      = Cert.Spec.adj (Cert.Net.nodes (W (Proc.devRef .tc main_arg3)) 1) (Cert.Net.nodes (W (Proc.devRef .tc main_arg4)) 1)
          (Cert.Net.wts (W (Proc.devRef .tc main_arg1)) 1) s n := by
  refine Eq.trans (congrFun ?_ _)
    (adj_of_rows 1 _ _ (W (Proc.devRef .tc main_arg1)) Gen.slices_S4x262144_S1x262144_1_0 hs hd s n)
  after_results
  rfl

theorem bias1 (W : Valuation Cert.KernelIdeal.τ Cert.KernelIdeal.sig (Elt Ideal)) (n : Fin 8192) :
    (StableHlo.after (hostOps1 (F := Ideal)) W (Proc.devRef .tc main_call0_v45) : S1x8192.Idx → EReal) (ix2 0 n)
      = Cert.Net.bs (W (Proc.devRef .tc main_arg2)) 1 n := by
  refine Eq.trans (congrFun ?_ _) (biasOf_apply 1 (W (Proc.devRef .tc main_arg2)) Gen.slices_S4x8192_S1x8192_1_0 0 n)
  after_results
  rfl

theorem adj2 (W : Valuation Cert.KernelIdeal.τ Cert.KernelIdeal.sig (Elt Ideal))
    (hs : ∀ i, ((W (Proc.devRef .tc main_arg3) : S4x262144.Idx → BitVec 32) i).toNat < 8192)
    (hd : ∀ i, ((W (Proc.devRef .tc main_arg4) : S4x262144.Idx → BitVec 32) i).toNat < 8192) (s n : Fin 8192) :
    (StableHlo.after (hostOps2 (F := Ideal)) W (Proc.devRef .tc main_call0_v65) : S8192x8192.Idx → EReal) (ix2 s n)
      = Cert.Spec.adj (Cert.Net.nodes (W (Proc.devRef .tc main_arg3)) 2) (Cert.Net.nodes (W (Proc.devRef .tc main_arg4)) 2)
          (Cert.Net.wts (W (Proc.devRef .tc main_arg1)) 2) s n := by
  refine Eq.trans (congrFun ?_ _)
    (adj_of_rows 2 _ _ (W (Proc.devRef .tc main_arg1)) Gen.slices_S4x262144_S1x262144_2_0 hs hd s n)
  after_results
  rfl

theorem bias2 (W : Valuation Cert.KernelIdeal.τ Cert.KernelIdeal.sig (Elt Ideal)) (n : Fin 8192) :
    (StableHlo.after (hostOps2 (F := Ideal)) W (Proc.devRef .tc main_call0_v68) : S1x8192.Idx → EReal) (ix2 0 n)
      = Cert.Net.bs (W (Proc.devRef .tc main_arg2)) 2 n := by
  refine Eq.trans (congrFun ?_ _) (biasOf_apply 2 (W (Proc.devRef .tc main_arg2)) Gen.slices_S4x8192_S1x8192_2_0 0 n)
  after_results
  rfl

theorem adj3 (W : Valuation Cert.KernelIdeal.τ Cert.KernelIdeal.sig (Elt Ideal))
    (hs : ∀ i, ((W (Proc.devRef .tc main_arg3) : S4x262144.Idx → BitVec 32) i).toNat < 8192)
    (hd : ∀ i, ((W (Proc.devRef .tc main_arg4) : S4x262144.Idx → BitVec 32) i).toNat < 8192) (s n : Fin 8192) :
    (StableHlo.after (hostOps3 (F := Ideal)) W (Proc.devRef .tc main_call0_v88) : S8192x8192.Idx → EReal) (ix2 s n)
      = Cert.Spec.adj (Cert.Net.nodes (W (Proc.devRef .tc main_arg3)) 3) (Cert.Net.nodes (W (Proc.devRef .tc main_arg4)) 3)
          (Cert.Net.wts (W (Proc.devRef .tc main_arg1)) 3) s n := by
  refine Eq.trans (congrFun ?_ _)
    (adj_of_rows 3 _ _ (W (Proc.devRef .tc main_arg1)) Gen.slices_S4x262144_S1x262144_3_0 hs hd s n)
  after_results
  rfl

theorem bias3 (W : Valuation Cert.KernelIdeal.τ Cert.KernelIdeal.sig (Elt Ideal)) (n : Fin 8192) :
    (StableHlo.after (hostOps3 (F := Ideal)) W (Proc.devRef .tc main_call0_v91) : S1x8192.Idx → EReal) (ix2 0 n)
      = Cert.Net.bs (W (Proc.devRef .tc main_arg2)) 3 n := by
  refine Eq.trans (congrFun ?_ _) (biasOf_apply 3 (W (Proc.devRef .tc main_arg2)) Gen.slices_S4x8192_S1x8192_3_0 0 n)
  after_results
  rfl

end Cert.KernelIdeal.HostValue

end
-- ==== Proof.KValue.lean ====
import proofs.«427408_j57458072485900_3_alg».proof.Proof.KRun
import proofs.«427408_j57458072485900_3_alg».proof.Proof.K0Value
import proofs.«427408_j57458072485900_3_alg».proof.Proof.K1Value
import proofs.«427408_j57458072485900_3_alg».proof.Proof.K2Value
import proofs.«427408_j57458072485900_3_alg».proof.Proof.K3Value
import proofs.«427408_j57458072485900_3_alg».proof.Proof.HostValue
import proofs.«427408_j57458072485900_3_alg».proof.Proof.Net
import Idealize.ShloMosaic.Lib.ValueIdx

noncomputable section

namespace Cert.KernelIdeal.Mm

open Idealize.ShloMosaic Idealize.ShloMosaic.TcCoe Idealize.ShloMosaic.ValueIdx Idealize.SL.Sem
open Cert.KernelIdeal Cert.KernelIdeal.Gen Cert.KernelIdeal.HostValue Cert.Spec Cert.Net

variable [Cert.KernelIdeal.Facts] (m : (ℓ : Loc nD τ sig) → Buf (Elt Ideal) ℓ) (c : Dev nD)

abbrev aX : SX.Idx → EReal := m ((c : Thread nD τ).loc main_arg0)
abbrev aW : SE.Idx → EReal := m ((c : Thread nD τ).loc main_arg1)
abbrev aB : SB.Idx → EReal := m ((c : Thread nD τ).loc main_arg2)
abbrev aS : SE.Idx → BitVec 32 := m ((c : Thread nD τ).loc main_arg3)
abbrev aD : SE.Idx → BitVec 32 := m ((c : Thread nD τ).loc main_arg4)
abbrev lay := layer (aW m c) (aB m c) (aS m c) (aD m c)

variable (hw : IsReal (aW m c)) (hb : IsReal (aB m c)) (hs : ∀ i, (aS m c i).toNat < 8192) (hd : ∀ i, (aD m c i).toNat < 8192)
include hw hb hs hd

-- A call that leaves the dense route on layer `l`'s bias row, its matrix of summed edge weights and real activations leaves layer `l` of them: distributivity over the reals.
theorem layer_step (l : Fin 4) (W : Valuation τ sig (Elt Ideal)) (hW : ∀ {b}, Kept b → W (Proc.devRef .tc b) = W0 m c b)
    {h O out act : SX.Idx → EReal} {mat : S8192x8192.Idx → EReal} {bias : S1x8192.Idx → EReal}
    (hO : O = out) (hact : act = h ∧ IsReal h)
    (hout : ∀ (p : Fin 256) (n : Fin 8192), out (ix2 p n)
      = denseRow (fun n' => bias (ix2 0 n')) (fun s n' => mat (ix2 s n')) (fun s => act (ix2 p s)) n)
    (hmat : (∀ i, ((W (Proc.devRef .tc main_arg3) : S4x262144.Idx → BitVec 32) i).toNat < 8192) →
      (∀ i, ((W (Proc.devRef .tc main_arg4) : S4x262144.Idx → BitVec 32) i).toNat < 8192) → ∀ s n : Fin 8192, mat (ix2 s n)
        = adj (nodes (W (Proc.devRef .tc main_arg3)) l) (nodes (W (Proc.devRef .tc main_arg4)) l) (wts (W (Proc.devRef .tc main_arg1)) l) s n)
    (hbias : ∀ n : Fin 8192, bias (ix2 0 n) = bs (W (Proc.devRef .tc main_arg2)) l n) :
    O = lay m c l h ∧ IsReal (lay m c l h) := by
  obtain ⟨rfl, hh⟩ := hact
  rw [hW (b := main_arg1) (by decide), hW (b := main_arg3) (by decide), hW (b := main_arg4) (by decide)] at hmat
  rw [hW (b := main_arg2) (by decide)] at hbias
  refine ⟨hO.trans (funext fun i => ?_), layer_isReal _ _ _ _ hw hb l _ hh⟩
  obtain ⟨p, n, rfl⟩ : ∃ (p : Fin 256) (n : Fin 8192), i = ix2 p n := ⟨i 0, i 1, eq_ix2 i⟩
  have e1 : (fun s n' => mat (ix2 s n')) = adj (nodes (aS m c) l) (nodes (aD m c) l) (wts (aW m c) l) :=
    funext fun s => funext (hmat hs hd s)
  rw [hout, lay, layer_apply, e1, show (fun n' => bias (ix2 0 n')) = bs (aB m c) l from funext hbias]
  exact congrFun (denseRow_adj_eq_layerRow _ _ _ _ (fun e => hw _) (row act p) (fun s => hh _)) n

-- The four layers in order: each call is handed the previous call's result, which the stretch between them does not write.
omit hw hb hs hd in
theorem main_v0_eq (h : IsReal (aX m c) ∧ IsReal (aW m c) ∧ IsReal (aB m c) ∧ (∀ i, (aS m c i).toNat < 8192) ∧ ∀ i, (aD m c i).toNat < 8192) :
    (W8 m c (Proc.devRef .tc main_v0) : S256x8192.Idx → EReal) = net (aW m c) (aB m c) (aS m c) (aD m c) (aX m c) := by
  obtain ⟨hx, hw, hb, hs, hd⟩ := h
  have L := layer_step m c hw hb hs hd
  have h0 : (W2 m c (Proc.devRef .tc main_call0_v23) : S256x8192.Idx → EReal) = _ ∧ _ :=
    L 0 (W0 m c) (fun _ => rfl) (afterCall_arr (p := 0) launch0.win.arr_inj _ _ c 3) ⟨x0 (W0 m c), hx⟩
      (out0_eq (onCore (W1 m)) c) (adj0 (W0 m c)) (bias0 (W0 m c))
  have h1 : (W4 m c (Proc.devRef .tc main_call0_v46) : S256x8192.Idx → EReal) = _ ∧ _ :=
    L 1 (W2 m c) (fun hk => (kept m c hk).1) (afterCall_arr (p := 1) launch1.win.arr_inj _ _ c 3)
      ⟨(StableHlo.after_of_writes_sub hostOps1 _ hostOps1_writes (by decide)).trans h0.1, h0.2⟩
      (out1_eq (onCore (W3 m)) c) (adj1 (W2 m c)) (bias1 (W2 m c))
  have h2 : (W6 m c (Proc.devRef .tc main_call0_v69) : S256x8192.Idx → EReal) = _ ∧ _ :=
    L 2 (W4 m c) (fun hk => (kept m c hk).2.1) (afterCall_arr (p := 2) launch2.win.arr_inj _ _ c 3)
      ⟨(StableHlo.after_of_writes_sub hostOps2 _ hostOps2_writes (by decide)).trans h1.1, h1.2⟩
      (out2_eq (onCore (W5 m)) c) (adj2 (W4 m c)) (bias2 (W4 m c))
  exact (L 3 (W6 m c) (fun hk => (kept m c hk).2.2.1) (afterCall_arr (p := 3) launch3.win.arr_inj _ _ c 3)
    ⟨(StableHlo.after_of_writes_sub hostOps3 _ hostOps3_writes (by decide)).trans h2.1, h2.2⟩
    (out3_eq (onCore (W7 m)) c) (adj3 (W6 m c)) (bias3 (W6 m c))).1

end Cert.KernelIdeal.Mm

end
-- ==== Proof.RefValue.lean ====
import proofs.«427408_j57458072485900_3_alg».proof.Proof.Gen.ReferenceIdeal.Read
import proofs.«427408_j57458072485900_3_alg».proof.Proof.Net
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run
import Idealize.ShloMosaic.Lib.StableHlo.Predicate

noncomputable section

namespace Cert.RefValue

open Cert.ReferenceIdeal Idealize.ShloMosaic Idealize.ShloMosaic.ValueIdx Idealize.ShloMosaic.TcCoe Idealize.SL.Sem Idealize.ShloMosaic.StableHlo
open Facts₀ Facts
open scoped BigOperators

variable [hR : Cert.ReferenceIdeal.Facts]

abbrev GD := gather_S256x8192_S262144x1_S256x262144_0_1_n_n_1_1_2561
abbrev SD := scatter_S8192x256_S262144x1_S262144x256_1_0_0_1

section Layout
variable {α : Type}

def rowE (l : Fin 4) (hE : S4x262144.Slices ![l.val, 0] S1x262144) (a : S4x262144.Idx → α) : S262144.Idx → α :=
  shapeCast _ (extractStridedSlice S1x262144 ![l.val, 0] a hE) shapeCasts_S1x262144_S262144

theorem rowE_apply (l : Fin 4) (hE : S4x262144.Slices ![l.val, 0] S1x262144) (a : S4x262144.Idx → α) (e : Fin 262144) :
    rowE l hE a (ix1 e) = a (ix2 l e) :=
  Cert.Net.row_apply l a hE _ e

def col (v : S262144.Idx → α) : S262144x1.Idx → α := broadcastInDim S262144x1 ![0] bcast_S262144_S262144x1_0 v

theorem col_apply (v : S262144.Idx → α) (i : S262144x1.Idx) : col v i = v (ix1 (i 0)) :=
  Cert.Net.col_apply _ v i

theorem splat_apply {t : Shape} (h : S_.BroadcastsInDim t ![]) (c : S_.Idx → α) (i : t.Idx) :
    broadcastInDim t ![] h c i = c ix0 :=
  broadcastInDim_apply _ h c i ix0 fun a => a.elim0

theorem rows_apply {m k : Nat} (h₁ : (⟨1, ![k]⟩ : Shape).BroadcastsInDim ⟨2, ![1, k]⟩ ![1])
    (h₂ : (⟨2, ![1, k]⟩ : Shape).BroadcastsInDim ⟨2, ![m, k]⟩ ![0, 1]) (v : (⟨1, ![k]⟩ : Shape).Idx → α)
    (p : Fin m) (q : Fin k) :
    broadcastInDim ⟨2, ![m, k]⟩ ![0, 1] h₂ (broadcastInDim ⟨2, ![1, k]⟩ ![1] h₁ v) (ix2 p q) = v (ix1 q) := by
  have hq := q.isLt
  rw [broadcastInDim_apply _ h₂ _ (ix2 p q) (ix2 (0 : Fin 1) q) fun a => match a with
    | ⟨0, _⟩ => (if_pos rfl).symm
    | ⟨1, _⟩ => by show q.val = if k = 1 then 0 else q.val; split <;> omega]
  exact broadcastInDim_apply _ h₁ v _ (ix1 q) fun a => match a with
    | ⟨0, _⟩ => by show q.val = if k = 1 then 0 else q.val; split <;> omega

end Layout

theorem gather_apply (h : FVec Ideal S256x8192 .f32) (v : IVec S262144 32) (p : Fin 256) (e : Fin 262144) :
    Host.gather GD h (col v) (ix2 p e) = h (ix2 p ⟨min (v (ix1 e)).toInt.toNat 8191, by omega⟩) := by
  refine congrArg h (funext fun a => Fin.ext ?_)
  match a with
  | ⟨0, _⟩ => exact Nat.zero_add _
  | ⟨1, _⟩ =>
    show min (col v (GD.siIdx (ix2 p e) ⟨0, Nat.one_pos⟩)).toInt.toNat 8191 = _
    rw [col_apply]
    rfl

-- An update `(e, q)` lands on `(word of e, q)`, so `(n, p)` collects the updates `(e, p)` of the edges whose word is `n`.
theorem scatterAdd_apply (z : FVec Ideal S8192x256 .f32) (v : IVec S262144 32) (hb : ∀ e, (v (ix1 e)).toNat < 8192)
    (upd : FVec Ideal S262144x256 .f32) (n : Fin 8192) (p : Fin 256) :
    Host.scatterAdd SD z (col v) upd (ix2 n p)
      = z (ix2 n p) + ∑ e ∈ Finset.univ.filter (fun e : Fin 262144 => (v (ix1 e)).toNat = n.val), upd (ix2 e p) := by
  refine congrArg (z (ix2 n p) + ·) ?_
  rw [Finset.sum_filter, sum_idx2, Finset.sum_filter]
  refine Finset.sum_congr rfl fun e _ => ?_
  have hl : ∀ q, SD.resultIdx? (ix2 e q) (col v) = some (ix2 n p) ↔ (v (ix1 e)).toNat = n.val ∧ q = p := fun q => by
    rw [Cert.Net.resultIdx_eq SD _ _ (ix2 ⟨_, hb e⟩ q) fun a => match a with
      | ⟨0, _⟩ => by
        show (col v (SD.siIdx (ix2 e q) ⟨0, Nat.one_pos⟩)).toInt + ((0 : Nat) : Int) = _
        rw [col_apply]
        show (v (ix1 e)).toInt + 0 = _
        rw [Predicate.toInt_eq_toNat_of_lt (by have := hb e; omega)]
        rfl
      | ⟨1, _⟩ => Int.zero_add _]
    exact ⟨fun h => ⟨congrArg (fun f : S8192x256.Idx => (f 0).val) (Option.some.inj h), congrArg (· 1) (Option.some.inj h)⟩,
      fun ⟨h0, h1⟩ => h1 ▸ congrArg (fun x => some (ix2 x q)) (Fin.ext h0)⟩
  simp only [hl]
  by_cases h : (v (ix1 e)).toNat = n.val <;> simp [h]

-- The source words of layer `l`, a negative one moved up by 8192: below 8192 no word is negative and nothing moves.
def wsrc (l : Fin 4) (hE : S4x262144.Slices ![l.val, 0] S1x262144) (src : IVec S4x262144 32) : IVec S262144 32 := fun i =>
  Scalar.select (IntOp.cmpi .slt (rowE l hE src i) 0#32) (IntOp.addi (rowE l hE src i) 8192#32) (rowE l hE src i)

theorem wsrc_apply (l : Fin 4) (hE : S4x262144.Slices ![l.val, 0] S1x262144) (src : IVec S4x262144 32)
    (hs : ∀ i, (src i).toNat < 8192) (e : Fin 262144) : wsrc l hE src (ix1 e) = src (ix2 l e) := by
  unfold wsrc
  rw [rowE_apply, eq_zero_of_ne_one (mt (Predicate.slt_iff_toNat (by have := hs (ix2 l e); omega) (by decide)).1
    (Nat.not_lt_zero _)), select_zero]

-- One trip of the reference's loop as a function of the activations going in, on row `l` of the edge arrays and the biases.
def refLayer (l : Fin 4) (hE : S4x262144.Slices ![l.val, 0] S1x262144) (hB : S4x8192.Slices ![l.val, 0] S1x8192)
    (h : FVec Ideal S256x8192 .f32) (w : FVec Ideal S4x262144 .f32) (b : FVec Ideal S4x8192 .f32)
    (src dst : IVec S4x262144 32) : FVec Ideal S256x8192 .f32 :=
  maximumf
    (addf
      (transpose S256x8192 [1, 0]
        (Host.scatterAdd SD (broadcastInDim S8192x256 ![] bcast_S_S8192x256 (constant S_ .f32 0x00000000#32))
          (col (rowE l hE dst))
          (transpose S262144x256 [1, 0]
            (mulf (Host.gather GD h (col (wsrc l hE src)))
              (broadcastInDim S256x262144 ![0, 1] bcast_S1x262144_S256x262144_0_1
                (broadcastInDim S1x262144 ![1] bcast_S262144_S1x262144_1 (rowE l hE w))))
            transposes_S256x262144_S262144x256_1_0))
        transposes_S8192x256_S256x8192_1_0)
      (broadcastInDim S256x8192 ![0, 1] bcast_S1x8192_S256x8192_0_1
        (broadcastInDim S1x8192 ![1] bcast_S8192_S1x8192_1
          (shapeCast _ (extractStridedSlice S1x8192 ![l.val, 0] b hB) shapeCasts_S1x8192_S8192))))
    (broadcastInDim S256x8192 ![] bcast_S_S256x8192 (constant S_ .f32 0x00000000#32))

-- With every index word below 8192 the wrap and the clamp do nothing and a word names its neuron: the trip is the specification's layer.
theorem refLayer_eq (l : Fin 4) (hE : S4x262144.Slices ![l.val, 0] S1x262144) (hB : S4x8192.Slices ![l.val, 0] S1x8192)
    (h : FVec Ideal S256x8192 .f32) (w : FVec Ideal S4x262144 .f32) (b : FVec Ideal S4x8192 .f32)
    (src dst : IVec S4x262144 32) (hs : ∀ i, (src i).toNat < 8192) (hd : ∀ i, (dst i).toNat < 8192) :
    refLayer l hE hB h w b src dst = Cert.Net.layer w b src dst l h := by
  funext i
  obtain ⟨p, n, rfl⟩ : ∃ (p : Fin 256) (n : Fin 8192), i = ix2 p n := ⟨i 0, i 1, eq_ix2 i⟩
  rw [Cert.Net.layer_apply]
  unfold refLayer Cert.Spec.layerRow Cert.Spec.edgeSum
  rw [maximumf_apply, addf_apply, splat_apply, constant_apply, Ideal.ofBits_zero_f32, rows_apply, Cert.Net.row_apply,
    transpose_ix2_apply, scatterAdd_apply _ _ (fun e => by rw [rowE_apply]; exact hd _), splat_apply, constant_apply,
    Ideal.ofBits_zero_f32, zero_add]
  refine congrArg (fun t => max (t + b (ix2 l n)) 0) (Finset.sum_congr (Finset.filter_congr fun e _ => ?_) fun e _ => ?_)
  · rw [rowE_apply]
    show _ ↔ Cert.Net.neuron (dst (ix2 l e)) = n
    rw [Cert.Net.neuron_of_lt _ (hd _)]
    exact ⟨fun h => Fin.ext h, fun h => congrArg Fin.val h⟩
  · rw [transpose_ix2_apply, mulf_apply, rows_apply, rowE_apply, gather_apply]
    show _ = h (ix2 p (Cert.Net.neuron (src (ix2 l e)))) * w (ix2 l e)
    rw [Cert.Net.neuron_of_lt _ (hs _)]
    refine congrArg (fun k => h (ix2 p k) * _) (Fin.ext ?_)
    show min (BitVec.toInt _).toNat 8191 = (src (ix2 l e)).toNat
    rw [wsrc_apply _ _ _ hs, Predicate.toInt_eq_toNat_of_lt (by have := hs (ix2 l e); omega), Int.toNat_natCast]
    have := hs (ix2 l e)
    omega

-- The reference is four such trips, on rows 0 to 3.
theorem result_eq (x : FVec Ideal Cert.ReferenceIdeal.S256x8192 .f32) (w : FVec Ideal Cert.ReferenceIdeal.S4x262144 .f32)
    (b : FVec Ideal Cert.ReferenceIdeal.S4x8192 .f32) (src dst : IVec Cert.ReferenceIdeal.S4x262144 32)
    (hs : ∀ i, (src i).toNat < 8192) (hd : ∀ i, (dst i).toNat < 8192) :
    Cert.ReferenceIdeal.Read.val_main_v107 (F := Ideal) x w b src dst = Cert.Net.net w b src dst x := by
  have e := fun l hE hB h => refLayer_eq l hE hB h w b src dst hs hd
  show refLayer 3 slices_S4x262144_S1x262144_3_0 slices_S4x8192_S1x8192_3_0
    (refLayer 2 slices_S4x262144_S1x262144_2_0 slices_S4x8192_S1x8192_2_0
      (refLayer 1 slices_S4x262144_S1x262144_1_0 slices_S4x8192_S1x8192_1_0
        (refLayer 0 slices_S4x262144_S1x262144_0_0 slices_S4x8192_S1x8192_0_0 x w b src dst) w b src dst) w b src dst)
    w b src dst = _
  rw [e, e, e, e]
  rfl

theorem run (m' : (ℓ : Loc Cert.ReferenceIdeal.nD Cert.ReferenceIdeal.τ Cert.ReferenceIdeal.sig) → Buf (Elt Ideal) ℓ)
    (g' : Dev Cert.ReferenceIdeal.nD → PrngReg)
    (hs : ∀ (c : Dev Cert.ReferenceIdeal.nD) i, (m' ((c.tc : Thread Cert.ReferenceIdeal.nD Cert.ReferenceIdeal.τ).loc Cert.ReferenceIdeal.main_arg3) i).toNat < 8192)
    (hd : ∀ (c : Dev Cert.ReferenceIdeal.nD) i, (m' ((c.tc : Thread Cert.ReferenceIdeal.nD Cert.ReferenceIdeal.τ).loc Cert.ReferenceIdeal.main_arg4) i).toNat < 8192) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v107)
        = Cert.Net.net (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run _ _ _).mono
    (fun r h c => ⟨(h c).1.trans ((Cert.ReferenceIdeal.Read.val_main_v107_eq m' c).trans
        (result_eq _ _ _ _ _ (hs c) (hd c))), (h c).2⟩)
    (Cert.ReferenceIdeal.Value.run m' g')

end Cert.RefValue
end
-- ==== Proof.PreFacts.lean ====
import proofs.«427408_j57458072485900_3_alg».proof.Pre_finite_inputs
import proofs.«427408_j57458072485900_3_alg».proof.Proof.Gen.Pre_finite_inputs
import proofs.«427408_j57458072485900_3_alg».proof.Proof.Spec
import Idealize.ShloMosaic.PureOps.Ideal
import Idealize.ShloMosaic.Lib.ValueIdx
import Idealize.ShloMosaic.Lib.ReduceAll
import Idealize.ShloMosaic.Lib.StableHlo.Predicate

namespace Cert.PreFacts

open Idealize.ShloMosaic

instance : Subsingleton Cert.Pre_finite_inputs.S_.Idx := ⟨fun a b => funext fun d => d.elim0⟩

theorem inf_pattern : Ideal.ofBits .f32 0x7F800000#32 = (⊤ : EReal) := by
  simp [Ideal.ofBits, Ideal.ieee]

-- An extended real whose absolute value is below plus infinity is neither infinity.
theorem real_of_abs_lt_inf (x : EReal)
    (h : Ideal.cmp .olt (max x (-x)) (Ideal.ofBits .f32 0x7F800000#32) = 1#1) : ∃ r : ℝ, x = (r : EReal) := by
  rw [inf_pattern] at h
  simp only [Ideal.cmp, StableHlo.Predicate.ofBool_eq_one_iff, decide_eq_true_eq] at h
  induction x using EReal.rec with
  | bot => simp at h
  | coe r => exact ⟨r, rfl⟩
  | top => simp at h

-- A non-negative signed reading has the top bit clear, so the signed bound is the unsigned one.
theorem toNat_lt_of_signed (v : BitVec 32) (h0 : IntOp.cmpi .sge v 0#32 = 1#1) (h1 : IntOp.cmpi .slt v 8192#32 = 1#1) :
    v.toNat < 8192 := by
  have h0 := IntOp.cmpi_sge.1 h0
  have h1 := IntOp.cmpi_slt.1 h1
  rw [show (0#32 : BitVec 32).toInt = 0 by decide, BitVec.toInt_eq_toNat_cond] at h0
  rw [show (8192#32 : BitVec 32).toInt = 8192 by decide, BitVec.toInt_eq_toNat_cond] at h1
  split at h0 <;> omega

theorem of_fn [Cert.Pre_finite_inputs.Facts]
    (x : FVec Ideal Cert.Pre_finite_inputs.S256x8192 .f32) (w : FVec Ideal Cert.Pre_finite_inputs.S4x262144 .f32) (b : FVec Ideal Cert.Pre_finite_inputs.S4x8192 .f32)
    (src dst : IVec Cert.Pre_finite_inputs.S4x262144 32)
    (h : Cert.Pre_finite_inputs.fn (F := Ideal) x w b src dst = fun _ => 1#1) :
    Cert.Spec.IsReal x ∧ Cert.Spec.IsReal w ∧ Cert.Spec.IsReal b ∧ (∀ i, (src i).toNat < 8192) ∧ (∀ i, (dst i).toNat < 8192) := by
  have e := congrFun h ValueIdx.ix0
  dsimp only [Cert.Pre_finite_inputs.fn, Cert.Pre_finite_inputs.fn_part1] at e
  simp only [andi, IntOp.andi_eq_one] at e
  obtain ⟨⟨⟨⟨hx, hw⟩, hb⟩, hs⟩, hd⟩ := e
  exact ⟨fun i => real_of_abs_lt_inf _ (Host.reduce_andi_all _ _ _ _ _ hx i),
    fun i => real_of_abs_lt_inf _ (Host.reduce_andi_all _ _ _ _ _ hw i),
    fun i => real_of_abs_lt_inf _ (Host.reduce_andi_all _ _ _ _ _ hb i),
    fun i => (IntOp.andi_eq_one.1 (Host.reduce_andi_all _ _ _ _ _ hs i)).elim (toNat_lt_of_signed _),
    fun i => (IntOp.andi_eq_one.1 (Host.reduce_andi_all _ _ _ _ _ hd i)).elim (toNat_lt_of_signed _)⟩

end Cert.PreFacts
-- ==== Proof.lean ====
import proofs.«427408_j57458072485900_3_alg».proof.Defs
import proofs.«427408_j57458072485900_3_alg».proof.Proof.Gen.Kernel
import proofs.«427408_j57458072485900_3_alg».proof.Proof.Gen.KernelIdeal
import proofs.«427408_j57458072485900_3_alg».proof.Proof.Gen.ReferenceIdeal
import proofs.«427408_j57458072485900_3_alg».proof.Proof.Gen.ReferenceIdeal.Run
import proofs.«427408_j57458072485900_3_alg».proof.Proof.Gen.ReferenceIdeal.Read
import proofs.«427408_j57458072485900_3_alg».proof.Proof.Gen.Pre_finite_inputs
import proofs.«427408_j57458072485900_3_alg».proof.Proof.KRun
import proofs.«427408_j57458072485900_3_alg».proof.Proof.KBRun
import proofs.«427408_j57458072485900_3_alg».proof.Proof.KValue
import proofs.«427408_j57458072485900_3_alg».proof.Proof.RefValue
import proofs.«427408_j57458072485900_3_alg».proof.Proof.PreFacts
import Idealize.ShloMosaic.Adequacy
import Idealize.ShloMosaic.Init

noncomputable section

namespace Cert.Proof

open Idealize.ShloMosaic Idealize.SL.Sem

open Cert.Kernel Cert.Kernel.Mm in
theorem frame_k : Cert.frame_Kernel := fun m ρ _ =>
  (θ_run (defs (F := Bits)) _ _).mono (fun r h c =>
    ⟨(h c main_arg0 (by decide)).2 (by decide), (h c main_arg1 (by decide)).2 (by decide), (h c main_arg2 (by decide)).2 (by decide),
      (h c main_arg3 (by decide)).2 (by decide), (h c main_arg4 (by decide)).2 (by decide)⟩) (run_main (F := Bits) m ρ)

open Cert.KernelIdeal Cert.KernelIdeal.Mm in
theorem frame_ki : Cert.frame_KernelIdeal := fun m ρ _ =>
  (θ_run (defs (F := Ideal)) _ _).mono (fun r h c =>
    ⟨(h c main_arg0 (by decide)).2 (by decide), (h c main_arg1 (by decide)).2 (by decide), (h c main_arg2 (by decide)).2 (by decide),
      (h c main_arg3 (by decide)).2 (by decide), (h c main_arg4 (by decide)).2 (by decide)⟩) (run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

-- Both programs end at the network of the arguments.
open Cert.KernelIdeal Cert.KernelIdeal.Mm in
theorem algebraic : Cert.algebraic_KernelIdeal_ReferenceIdeal := by
  intro m g m' g' hpre hagree
  have hP := fun c : Dev nD => Cert.PreFacts.of_fn _ _ _ _ _ (hpre c)
  refine ⟨fun c => Cert.Net.net (aW m c) (aB m c) (aS m c) (aD m c) (aX m c), ?_, ?_⟩
  · exact (θ_run (defs (F := Ideal)) _ _).mono (fun r h c =>
      ⟨(h c main_v0 (by decide)).1.trans (main_v0_eq m c (hP c)), (h c main_arg0 (by decide)).2 (by decide),
        (h c main_arg1 (by decide)).2 (by decide), (h c main_arg2 (by decide)).2 (by decide), (h c main_arg3 (by decide)).2 (by decide),
        (h c main_arg4 (by decide)).2 (by decide)⟩) (run_main (F := Ideal) m g)
  · refine (θ_run (Cert.ReferenceIdeal.defs (F := Ideal)) _ _).mono (fun r h c => ⟨?_, (h c).2⟩)
      (Cert.RefValue.run m' g'
        (fun c i => by rw [(hagree c).2.2.2.1]; exact (hP c).2.2.2.1 i)
        (fun c i => by rw [(hagree c).2.2.2.2]; exact (hP c).2.2.2.2 i))
    rw [(h c).1, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
